-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S384x128 .f32) (main_arg7 : FVec F S128 .f32) (main_arg8 : FVec F S128x10 .f32) (main_arg9 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S384x128 .f32 := Host.absf main_arg6
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg8
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S384x128 .f32) (main_arg7 : FVec F S128 .f32) (main_arg8 : FVec F S128x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩
abbrev S1x10 : Shape := ⟨2, ![1, 10]⟩
abbrev S512x10 : Shape := ⟨2, ![512, 10]⟩
abbrev S512x384 : Shape := ⟨2, ![512, 384]⟩
abbrev S512x1 : Shape := ⟨2, ![512, 1]⟩
abbrev S1x512 : Shape := ⟨2, ![1, 512]⟩
abbrev S5000x512 : Shape := ⟨2, ![5000, 512]⟩
abbrev S5000x384 : Shape := ⟨2, ![5000, 384]⟩
abbrev S512x128 : Shape := ⟨2, ![512, 128]⟩

abbrev nBuf : Space → Nat
  | .hbm => 100
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S384x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S1x128x128, .f32⟩
  | .hbm, ⟨43, _⟩ => ⟨S128x128, .f32⟩
  | .hbm, ⟨44, _⟩ => ⟨S1x128, .f32⟩
  | .hbm, ⟨45, _⟩ => ⟨S128, .f32⟩
  | .hbm, ⟨46, _⟩ => ⟨S1x128x128, .f32⟩
  | .hbm, ⟨47, _⟩ => ⟨S128x128, .f32⟩
  | .hbm, ⟨48, _⟩ => ⟨S1x128, .f32⟩
  | .hbm, ⟨49, _⟩ => ⟨S50000x128, .f32⟩
  | .hbm, ⟨50, _⟩ => ⟨S50000x128, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .bf16⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x128x128, .f32⟩
  | .hbm, ⟨66, _⟩ => ⟨S128x128, .f32⟩
  | .hbm, ⟨67, _⟩ => ⟨S1x128, .f32⟩
  | .hbm, ⟨68, _⟩ => ⟨S128, .f32⟩
  | .hbm, ⟨69, _⟩ => ⟨S1x128x128, .f32⟩
  | .hbm, ⟨70, _⟩ => ⟨S128x128, .f32⟩
  | .hbm, ⟨71, _⟩ => ⟨S1x128, .f32⟩
  | .hbm, ⟨72, _⟩ => ⟨S50000x128, .f32⟩
  | .hbm, ⟨73, _⟩ => ⟨S50000x128, .bf16⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .bf16⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S1x128x128, .f32⟩
  | .hbm, ⟨89, _⟩ => ⟨S128x128, .f32⟩
  | .hbm, ⟨90, _⟩ => ⟨S1x128, .f32⟩
  | .hbm, ⟨91, _⟩ => ⟨S128, .f32⟩
  | .hbm, ⟨92, _⟩ => ⟨S1x128x128, .f32⟩
  | .hbm, ⟨93, _⟩ => ⟨S128x128, .f32⟩
  | .hbm, ⟨94, _⟩ => ⟨S1x128, .f32⟩
  | .hbm, ⟨95, _⟩ => ⟨S50000x128, .f32⟩
  | .hbm, ⟨96, _⟩ => ⟨S1x128, .f32⟩
  | .hbm, ⟨97, _⟩ => ⟨S1x10, .f32⟩
  | .hbm, ⟨98, _⟩ => ⟨S50000x1, .i32⟩
  | .hbm, ⟨99, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .i32⟩
  | .local _ .vmem, ⟨40, _⟩ => ⟨S5000x1, .i32⟩
  | .local _ .vmem, ⟨41, _⟩ => ⟨S384x128, .f32⟩
  | .local _ .vmem, ⟨42, _⟩ => ⟨S1x128, .f32⟩
  | .local _ .vmem, ⟨43, _⟩ => ⟨S128x10, .f32⟩
  | .local _ .vmem, ⟨44, _⟩ => ⟨S1x10, .f32⟩
  | .local _ .vmem, ⟨45, _⟩ => ⟨S512x10, .f32⟩
  | .local _ .vmem, ⟨46, _⟩ => ⟨S512x384, .f32⟩
  | .local _ .vmem, ⟨47, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_8 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_scratch0 : Ref sig .tc := ⟨.vmem, 46, rfl⟩
abbrev cc3_scratch1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_18 : BitVec 32 := 0#32
  let v37 : BitVec 1 := Scalar.cmpi .ne v36 c0_i32_18
  v37

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S384x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x10 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S10_S1x10 : S10.ShapeCasts S1x10
  shapeCasts_S50000_S50000x1 : S50000.ShapeCasts S50000x1
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  concatenates_S5000x128_S5000x128_S5000x128_S5000x384_d1 : Shape.Concatenates [S5000x128, S5000x128, S5000x128] S5000x384 1
  broadcasts_S512x1_S512x384 : S512x1.Broadcasts S512x384
  inb_S384x128_S384x128_0_0 : ∀ a, (![0, 0] : Fin 2 → Nat) a + S384x128.size a ≤ S384x128.size a
  h_S384x128 : 0 < S384x128.numel
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x512_S5000x384_S512x384_0_0_1_1_n_n_wf : DotDims.WF S5000x512 S5000x384 S512x384 [0] [0] [1] [1] [] []
  dot_S5000x512_S5000x1_S512x1_0_0_1_1_n_n_wf : DotDims.WF S5000x512 S5000x1 S512x1 [0] [0] [1] [1] [] []
  dot_S512x384_S384x128_S512x128_1_0_0_1_n_n_wf : DotDims.WF S512x384 S384x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .i32 = 32 ∨ (Rect.block (s := S50000x1) S5000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S384x128.size a ≤ S384x128.size a
  hwx3_4 : ∀ i : grid3.Coords, EltTy.bits .f32 = 32 ∨ (Rect.block (s := S384x128) S384x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x10.size a ≤ S128x10.size a
  hwx3_6 : ∀ i : grid3.Coords, EltTy.bits .f32 = 32 ∨ (Rect.block (s := S128x10) S128x10.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x10.size a ≤ S1x10.size a
  hwx3_7 : ∀ i : grid3.Coords, EltTy.bits .f32 = 32 ∨ (Rect.block (s := S1x10) S1x10.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512x10.size a ≤ S512x10.size a
  hwx3_8 : ∀ i : grid3.Coords, EltTy.bits .f32 = 32 ∨ (Rect.block (s := S512x10) S512x10.size (cc3_transform_8 i) (hinb3_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S5000x384_S512x384_0_0_1_1_n_n : DotDims S5000x512 S5000x384 S512x384 where
  lhsContracting := [0]
  rhsContracting := [0]
  lhsNonContracting := [1]
  rhsNonContracting := [1]
  lhsBatch := []
  rhsBatch := []
  wf := dot_S5000x512_S5000x384_S512x384_0_0_1_1_n_n_wf
def dot_S5000x512_S5000x1_S512x1_0_0_1_1_n_n : DotDims S5000x512 S5000x1 S512x1 where
  lhsContracting := [0]
  rhsContracting := [0]
  lhsNonContracting := [1]
  rhsNonContracting := [1]
  lhsBatch := []
  rhsBatch := []
  wf := dot_S5000x512_S5000x1_S512x1_0_0_1_1_n_n_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S384x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg8) S128x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v74) S1x10.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v76) S512x10.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S50000x384 : Shape := ⟨2, ![50000, 384]⟩
abbrev S512 : Shape := ⟨1, ![512]⟩
abbrev S512x384 : Shape := ⟨2, ![512, 384]⟩
abbrev S512x1 : Shape := ⟨2, ![512, 1]⟩
abbrev S512x128 : Shape := ⟨2, ![512, 128]⟩
abbrev S512x10 : Shape := ⟨2, ![512, 10]⟩
abbrev S1x10 : Shape := ⟨2, ![1, 10]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S384x128, .f32⟩
  | 7 => ⟨S128, .f32⟩
  | 8 => ⟨S128x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S50000x1, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S1x128x128, .f32⟩
  | 51 => ⟨S128x128, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000x128, .f32⟩
  | 68 => ⟨S50000x128, .f32⟩
  | 69 => ⟨S1x128x128, .f32⟩
  | 70 => ⟨S128x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S1x128x128, .f32⟩
  | 78 => ⟨S128x128, .f32⟩
  | 79 => ⟨S50000x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S1x128x128, .f32⟩
  | 105 => ⟨S128x128, .f32⟩
  | 106 => ⟨S50000x128, .f32⟩
  | 107 => ⟨S50000x128, .f32⟩
  | 108 => ⟨S50000x384, .f32⟩
  | 109 => ⟨S_, .f32⟩
  | 110 => ⟨S50000, .f32⟩
  | 111 => ⟨S_, .f32⟩
  | 112 => ⟨S512, .f32⟩
  | 113 => ⟨S50000x1, .i32⟩
  | 114 => ⟨S512, .f32⟩
  | 115 => ⟨S_, .f32⟩
  | 116 => ⟨S512x384, .f32⟩
  | 117 => ⟨S50000x1, .i32⟩
  | 118 => ⟨S512x384, .f32⟩
  | 119 => ⟨S_, .f32⟩
  | 120 => ⟨S512, .f32⟩
  | 121 => ⟨S512, .f32⟩
  | 122 => ⟨S512x1, .f32⟩
  | 123 => ⟨S512x384, .f32⟩
  | 124 => ⟨S512x384, .f32⟩
  | 125 => ⟨S512x128, .f32⟩
  | 126 => ⟨S1x128, .f32⟩
  | 127 => ⟨S512x128, .f32⟩
  | _ => ⟨S50000x128, .f32⟩

abbrev hbmTy0_1 (i : Nat) : BufTy := match i % 128 with
  | 0 => ⟨S512x128, .f32⟩
  | 1 => ⟨S_, .f32⟩
  | 2 => ⟨S512x128, .f32⟩
  | 3 => ⟨S512x128, .f32⟩
  | 4 => ⟨S512x10, .f32⟩
  | 5 => ⟨S1x10, .f32⟩
  | 6 => ⟨S512x10, .f32⟩
  | 7 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_8 : Ref sig .tc := ⟨.hbm, 81, rfl⟩
abbrev main_v61 : Ref sig .tc := ⟨.hbm, 82, rfl⟩
abbrev main_v62 : Ref sig .tc := ⟨.hbm, 83, rfl⟩
abbrev main_c_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_11 : Ref sig .tc := ⟨.hbm, 109, rfl⟩
abbrev main_v86 : Ref sig .tc := ⟨.hbm, 110, rfl⟩
abbrev main_cst_12 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_13 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_14 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_call0_cst : Ref sig .tc := ⟨.hbm, 129, rfl⟩
abbrev main_call0_v0 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  bcast_S_S512 : S_.BroadcastsInDim S512 (![] : Fin 0 → Fin S512.rank)
  bcast_S_S512x384 : S_.BroadcastsInDim S512x384 (![] : Fin 0 → Fin S512x384.rank)
  bcast_S512_S512x1_0 : S512.BroadcastsInDim S512x1 (![0] : Fin 1 → Fin S512x1.rank)
  bcast_S512x1_S512x384_0_1 : S512x1.BroadcastsInDim S512x384 (![0, 1] : Fin 2 → Fin S512x384.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512_S50000x1_S50000_n_0_0_1_wf : ScatterDims.WF S512 S50000x1 S50000 [] [0] [0] 1
  scatter_S512x384_S50000x1_S50000x384_1_0_0_1_wf : ScatterDims.WF S512x384 S50000x1 S50000x384 [1] [0] [0] 1
  dot_S512x384_S384x128_S512x128_1_0_0_1_n_n_wf : DotDims.WF S512x384 S384x128 S512x128 [1] [0] [0] [1] [] []
  dot_S512x128_S128x10_S512x10_1_0_0_1_n_n_wf : DotDims.WF S512x128 S128x10 S512x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x384_S50000x1_S50000x384_1_0_0_1 : ScatterDims S512x384 S50000x1 S50000x384 where
  updateWindowDims := [1]
  insertedWindowDims := [0]
  scatterDimsToOperandDims := [0]
  indexVectorDim := 1
  wf := scatter_S512x384_S50000x1_S50000x384_1_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.HandKernel.Layer0.lean ====
import proofs.«426644_j22574348108036_2_alg».proof.Proof.Gen.Kernel.Launch
import proofs.«426644_j22574348108036_2_alg».proof.Proof.Gen.Kernel.Skeleton
import proofs.«426644_j22574348108036_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

private abbrev rowsRect : Rect S5000x128 := Rect.unit (s := S5000x128) ![0, 0] S5000x128.size inb_S5000x128_S5000x128_0_0

private abbrev degRect : Rect S5000x1 := Rect.unit (s := S5000x1) ![0, 0] S5000x1.size inb_S5000x1_S5000x1_0_0

private abbrev weightRect : Rect S128x128 := Rect.unit (s := S128x128) ![0, 0] S128x128.size inb_S128x128_S128x128_0_0

private abbrev biasRect : Rect S1x128 := Rect.unit (s := S1x128) ![0, 0] S1x128.size inb_S1x128_S1x128_0_0

/-- What the one whole-buffer store leaves in the result block: the layer's value on the six input blocks. -/
def layerOut0 (a : Vec F S5000x128 .f32) (d : Vec F S5000x1 .f32) (h : Vec F S5000x128 .f32) (wl : Vec F S128x128 .f32)
    (b : Vec F S1x128 .f32) (wr : Vec F S128x128 .f32) : Vec F S5000x128 .f32 :=
  View.canon [⟨rowsRect, k0_pay1 (View.ld a rowsRect) (View.ld d degRect) (View.ld h rowsRect) (View.ld wl weightRect)
    (View.ld wr weightRect) (View.ld b biasRect)⟩]

private theorem zeroOffsets : (![0, 0] : Fin 2 → Nat) = fun _ => 0 :=
  funext fun a => by match a with | ⟨0, _⟩ => rfl | ⟨1, _⟩ => rfl

theorem layerOut0_eq (a : Vec F S5000x128 .f32) (d : Vec F S5000x1 .f32) (h : Vec F S5000x128 .f32) (wl : Vec F S128x128 .f32)
    (b : Vec F S1x128 .f32) (wr : Vec F S128x128 .f32) : layerOut0 a d h wl b wr = k0_pay1 a d h wl wr b := by
  unfold layerOut0
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]

private theorem layerOut0_cover (p : Vec F S5000x128 .f32) (y : S5000x128.Idx) :
    ∃ pc ∈ ([⟨rowsRect, p⟩] : List (View.Piece (Elt F) S5000x128 .f32)), y ∈ pc.1.set :=
  View.cover_of_tiled [⟨rowsRect, p⟩] S5000x128.size (by rfl) y

/-- The body loads six whole blocks and stores the layer's value over the whole seventh. -/
private theorem layer_sound (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S5000x128 .f32) (harg7 : arg7.IsWhole)
    (a : Vec F S5000x128 .f32) (d : Vec F S5000x1 .f32) (h : Vec F S5000x128 .f32) (wl : Vec F S128x128 .f32)
    (b : Vec F S1x128 .f32) (wr : Vec F S128x128 .f32) (K : PUnit → sProp 𝕄) :
    iprop(owns (c : Thread nD τ) arg1 fullShare a ∗ owns (c : Thread nD τ) arg2 fullShare d ∗ owns (c : Thread nD τ) arg3 fullShare h
        ∗ owns (c : Thread nD τ) arg4 fullShare wl ∗ owns (c : Thread nD τ) arg5 fullShare b ∗ owns (c : Thread nD τ) arg6 fullShare wr
        ∗ (∃ o, owns (c : Thread nD τ) arg7 fullShare o)
        ∗ (iprop(owns (c : Thread nD τ) arg1 fullShare a ∗ owns (c : Thread nD τ) arg2 fullShare d ∗ owns (c : Thread nD τ) arg3 fullShare h
            ∗ owns (c : Thread nD τ) arg4 fullShare wl ∗ owns (c : Thread nD τ) arg5 fullShare b ∗ owns (c : Thread nD τ) arg6 fullShare wr
            ∗ owns (c : Thread nD τ) arg7 fullShare (layerOut0 a d h wl b wr)) -∗ K ⟨⟩))
      ⊢ wp frame (wpE (defs₀ (F := F)) Variants.none c none) E
          (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%o, %f7, -, H7⟩, Hk⟩
  subst hf1 hf2 hf3 hf4 hf5 hf6
  sl_exec
  sl_step
  iapply Hk
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  iexists _; isplitr; swap; iexact H7
  · ipureintro; exact View.read_writes_eq_canon _ _ _ (layerOut0_cover _)
  all_goals (ipureintro; rfl)

/-- Each input block is left as found; the result block holds the layer's value of the point's input blocks. -/
def layerDat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => layerOut0 (blockAt0 V c 0 t) (blockAt0 V c 1 t) (blockAt0 V c 2 t) (blockAt0 V c 3 t) (blockAt0 V c 4 t) (blockAt0 V c 5 t)
  Φ _ := Pipeline.ΦA spec0 c
  q _ := fullShare
  owed _ := 0

theorem layerDat0_A (c : Dev nD) (w : Fin cfg0.W) : (layerDat0 V c).A w = V c (Pipeline.arrRef spec0 w) := by
  dsimp only [layerDat0]

theorem layerDat0_after6 (c : Dev nD) (t : Fin cfg0.N) : (layerDat0 V c).after 6 t =
    layerOut0 (blockAt0 V c 0 t) (blockAt0 V c 1 t) (blockAt0 V c 2 t) (blockAt0 V c 3 t) (blockAt0 V c 4 t) (blockAt0 V c 5 t) := by
  dsimp only [layerDat0]

private theorem layerDat0_before0 (c : Dev nD) (t : Fin cfg0.N) (d) : (layerDat0 V c).before 0 t d = blockAt0 V c 0 t :=
  ((layerDat0 V c).before_in_eq_fetched 0 rfl (fun _ => rfl) (fun _ _ _ => rfl) (fun _ => rfl) t d).trans rfl
private theorem layerDat0_before1 (c : Dev nD) (t : Fin cfg0.N) (d) : (layerDat0 V c).before 1 t d = blockAt0 V c 1 t :=
  ((layerDat0 V c).before_in_eq_fetched 1 rfl (fun _ => rfl) (fun _ _ _ => rfl) (fun _ => rfl) t d).trans rfl
private theorem layerDat0_before2 (c : Dev nD) (t : Fin cfg0.N) (d) : (layerDat0 V c).before 2 t d = blockAt0 V c 2 t :=
  ((layerDat0 V c).before_in_eq_fetched 2 rfl (fun _ => rfl) (fun _ _ _ => rfl) (fun _ => rfl) t d).trans rfl
private theorem layerDat0_before3 (c : Dev nD) (t : Fin cfg0.N) (d) : (layerDat0 V c).before 3 t d = blockAt0 V c 3 t :=
  ((layerDat0 V c).before_in_eq_fetched 3 rfl (fun _ => rfl) (fun _ _ _ => rfl) (fun _ => rfl) t d).trans rfl
private theorem layerDat0_before4 (c : Dev nD) (t : Fin cfg0.N) (d) : (layerDat0 V c).before 4 t d = blockAt0 V c 4 t :=
  ((layerDat0 V c).before_in_eq_fetched 4 rfl (fun _ => rfl) (fun _ _ _ => rfl) (fun _ => rfl) t d).trans rfl
private theorem layerDat0_before5 (c : Dev nD) (t : Fin cfg0.N) (d) : (layerDat0 V c).before 5 t d = blockAt0 V c 5 t :=
  ((layerDat0 V c).before_in_eq_fetched 5 rfl (fun _ => rfl) (fun _ _ _ => rfl) (fun _ => rfl) t d).trans rfl

private theorem layer_body (c : Dev nD) (t : Fin cfg0.N) :
    iprop((layerDat0 V c).Φ t.castSucc ∗ (layerDat0 V c).owesAt () t.castSucc
    ∗ (∃ d, owns (c : Thread nD τ) (st0_0 t) fullShare ((layerDat0 V c).before 0 t d))
    ∗ (∃ d, owns (c : Thread nD τ) (st0_1 t) fullShare ((layerDat0 V c).before 1 t d))
    ∗ (∃ d, owns (c : Thread nD τ) (st0_2 t) fullShare ((layerDat0 V c).before 2 t d))
    ∗ (∃ d, owns (c : Thread nD τ) (st0_3 t) fullShare ((layerDat0 V c).before 3 t d))
    ∗ (∃ d, owns (c : Thread nD τ) (st0_4 t) fullShare ((layerDat0 V c).before 4 t d))
    ∗ (∃ d, owns (c : Thread nD τ) (st0_5 t) fullShare ((layerDat0 V c).before 5 t d))
    ∗ (∃ d, owns (c : Thread nD τ) (st0_6 t) fullShare ((layerDat0 V c).before 6 t d)))
      ⊢ wp frame (wpE (defs₀ (F := F)) Variants.none c none) Set.univ (bodyAt0 t) (fun _ =>
        iprop((layerDat0 V c).Φ t.succ ∗ (layerDat0 V c).owesAt () t.succ
        ∗ owns (c : Thread nD τ) (st0_0 t) fullShare ((layerDat0 V c).after 0 t)
        ∗ owns (c : Thread nD τ) (st0_1 t) fullShare ((layerDat0 V c).after 1 t)
        ∗ owns (c : Thread nD τ) (st0_2 t) fullShare ((layerDat0 V c).after 2 t)
        ∗ owns (c : Thread nD τ) (st0_3 t) fullShare ((layerDat0 V c).after 3 t)
        ∗ owns (c : Thread nD τ) (st0_4 t) fullShare ((layerDat0 V c).after 4 t)
        ∗ owns (c : Thread nD τ) (st0_5 t) fullShare ((layerDat0 V c).after 5 t)
        ∗ owns (c : Thread nD τ) (st0_6 t) fullShare ((layerDat0 V c).after 6 t))) := by
  unfold bodyAt0
  simp only [layerDat0_before0, layerDat0_before1, layerDat0_before2, layerDat0_before3, layerDat0_before4, layerDat0_before5]
  rw [show (layerDat0 V c).Φ t.succ = (layerDat0 V c).Φ t.castSucc from rfl,
    show (layerDat0 V c).owesAt () t.succ = (layerDat0 V c).owesAt () t.castSucc from rfl]
  dsimp only [layerDat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer_sound c Set.univ _ _ _ _ _ _ _ _ _ _ _ _ _ _ _ (blockAt0 V c 0 t) (blockAt0 V c 1 t) (blockAt0 V c 2 t)
    (blockAt0 V c 3 t) (blockAt0 V c 4 t) (blockAt0 V c 5 t) _)
  iframe H0 H1 H2 H3 H4 H5
  isplitl [H6]; · iexists _; iexact H6
  iintro ⟨H0, H1, H2, H3, H4, H5, H6⟩
  iframe

theorem layer_obligation0 (c : Dev nD) : BodyObligation (layerDat0 (F := F) V c) (defs₀ (F := F)) Variants.none () Set.univ := fun t => by
  rw [bigSep_W0, bigSep_W0]
  exact layer_body V c t

end Cert.Kernel.Hand

end
-- ==== Proof.HandKernel.Layer1.lean ====
import proofs.«426644_j22574348108036_2_alg».proof.Proof.Gen.Kernel.Launch
import proofs.«426644_j22574348108036_2_alg».proof.Proof.Gen.Kernel.Skeleton
import proofs.«426644_j22574348108036_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

private abbrev rowsRect : Rect S5000x128 := Rect.unit (s := S5000x128) ![0, 0] S5000x128.size inb_S5000x128_S5000x128_0_0

private abbrev degRect : Rect S5000x1 := Rect.unit (s := S5000x1) ![0, 0] S5000x1.size inb_S5000x1_S5000x1_0_0

private abbrev weightRect : Rect S128x128 := Rect.unit (s := S128x128) ![0, 0] S128x128.size inb_S128x128_S128x128_0_0

private abbrev biasRect : Rect S1x128 := Rect.unit (s := S1x128) ![0, 0] S1x128.size inb_S1x128_S1x128_0_0

/-- What the one whole-buffer store leaves in the result block: the layer's value on the six input blocks. -/
def layerOut1 (a : Vec F S5000x128 .f32) (d : Vec F S5000x1 .f32) (h : Vec F S5000x128 .f32) (wl : Vec F S128x128 .f32)
    (b : Vec F S1x128 .f32) (wr : Vec F S128x128 .f32) : Vec F S5000x128 .f32 :=
  View.canon [⟨rowsRect, k1_pay1 (View.ld a rowsRect) (View.ld d degRect) (View.ld h rowsRect) (View.ld wl weightRect)
    (View.ld wr weightRect) (View.ld b biasRect)⟩]

private theorem zeroOffsets : (![0, 0] : Fin 2 → Nat) = fun _ => 0 :=
  funext fun a => by match a with | ⟨0, _⟩ => rfl | ⟨1, _⟩ => rfl

theorem layerOut1_eq (a : Vec F S5000x128 .f32) (d : Vec F S5000x1 .f32) (h : Vec F S5000x128 .f32) (wl : Vec F S128x128 .f32)
    (b : Vec F S1x128 .f32) (wr : Vec F S128x128 .f32) : layerOut1 a d h wl b wr = k1_pay1 a d h wl wr b := by
  unfold layerOut1
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]

private theorem layerOut1_cover (p : Vec F S5000x128 .f32) (y : S5000x128.Idx) :
    ∃ pc ∈ ([⟨rowsRect, p⟩] : List (View.Piece (Elt F) S5000x128 .f32)), y ∈ pc.1.set :=
  View.cover_of_tiled [⟨rowsRect, p⟩] S5000x128.size (by rfl) y

/-- The body loads six whole blocks and stores the layer's value over the whole seventh. -/
private theorem layer_sound (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S5000x128 .f32) (harg7 : arg7.IsWhole)
    (a : Vec F S5000x128 .f32) (d : Vec F S5000x1 .f32) (h : Vec F S5000x128 .f32) (wl : Vec F S128x128 .f32)
    (b : Vec F S1x128 .f32) (wr : Vec F S128x128 .f32) (K : PUnit → sProp 𝕄) :
    iprop(owns (c : Thread nD τ) arg1 fullShare a ∗ owns (c : Thread nD τ) arg2 fullShare d ∗ owns (c : Thread nD τ) arg3 fullShare h
        ∗ owns (c : Thread nD τ) arg4 fullShare wl ∗ owns (c : Thread nD τ) arg5 fullShare b ∗ owns (c : Thread nD τ) arg6 fullShare wr
        ∗ (∃ o, owns (c : Thread nD τ) arg7 fullShare o)
        ∗ (iprop(owns (c : Thread nD τ) arg1 fullShare a ∗ owns (c : Thread nD τ) arg2 fullShare d ∗ owns (c : Thread nD τ) arg3 fullShare h
            ∗ owns (c : Thread nD τ) arg4 fullShare wl ∗ owns (c : Thread nD τ) arg5 fullShare b ∗ owns (c : Thread nD τ) arg6 fullShare wr
            ∗ owns (c : Thread nD τ) arg7 fullShare (layerOut1 a d h wl b wr)) -∗ K ⟨⟩))
      ⊢ wp frame (wpE (defs₀ (F := F)) Variants.none c none) E
          (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%o, %f7, -, H7⟩, Hk⟩
  subst hf1 hf2 hf3 hf4 hf5 hf6
  sl_exec
  sl_step
  iapply Hk
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  iexists _; isplitr; swap; iexact H7
  · ipureintro; exact View.read_writes_eq_canon _ _ _ (layerOut1_cover _)
  all_goals (ipureintro; rfl)

/-- Each input block is left as found; the result block holds the layer's value of the point's input blocks. -/
def layerDat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => blockAt1 V c 5 t
    | ⟨6, _⟩ => layerOut1 (blockAt1 V c 0 t) (blockAt1 V c 1 t) (blockAt1 V c 2 t) (blockAt1 V c 3 t) (blockAt1 V c 4 t) (blockAt1 V c 5 t)
  Φ _ := Pipeline.ΦA spec1 c
  q _ := fullShare
  owed _ := 0

theorem layerDat1_A (c : Dev nD) (w : Fin cfg1.W) : (layerDat1 V c).A w = V c (Pipeline.arrRef spec1 w) := by
  dsimp only [layerDat1]

theorem layerDat1_after6 (c : Dev nD) (t : Fin cfg1.N) : (layerDat1 V c).after 6 t =
    layerOut1 (blockAt1 V c 0 t) (blockAt1 V c 1 t) (blockAt1 V c 2 t) (blockAt1 V c 3 t) (blockAt1 V c 4 t) (blockAt1 V c 5 t) := by
  dsimp only [layerDat1]

private theorem layerDat1_before0 (c : Dev nD) (t : Fin cfg1.N) (d) : (layerDat1 V c).before 0 t d = blockAt1 V c 0 t :=
  ((layerDat1 V c).before_in_eq_fetched 0 rfl (fun _ => rfl) (fun _ _ _ => rfl) (fun _ => rfl) t d).trans rfl
private theorem layerDat1_before1 (c : Dev nD) (t : Fin cfg1.N) (d) : (layerDat1 V c).before 1 t d = blockAt1 V c 1 t :=
  ((layerDat1 V c).before_in_eq_fetched 1 rfl (fun _ => rfl) (fun _ _ _ => rfl) (fun _ => rfl) t d).trans rfl
private theorem layerDat1_before2 (c : Dev nD) (t : Fin cfg1.N) (d) : (layerDat1 V c).before 2 t d = blockAt1 V c 2 t :=
  ((layerDat1 V c).before_in_eq_fetched 2 rfl (fun _ => rfl) (fun _ _ _ => rfl) (fun _ => rfl) t d).trans rfl
private theorem layerDat1_before3 (c : Dev nD) (t : Fin cfg1.N) (d) : (layerDat1 V c).before 3 t d = blockAt1 V c 3 t :=
  ((layerDat1 V c).before_in_eq_fetched 3 rfl (fun _ => rfl) (fun _ _ _ => rfl) (fun _ => rfl) t d).trans rfl
private theorem layerDat1_before4 (c : Dev nD) (t : Fin cfg1.N) (d) : (layerDat1 V c).before 4 t d = blockAt1 V c 4 t :=
  ((layerDat1 V c).before_in_eq_fetched 4 rfl (fun _ => rfl) (fun _ _ _ => rfl) (fun _ => rfl) t d).trans rfl
private theorem layerDat1_before5 (c : Dev nD) (t : Fin cfg1.N) (d) : (layerDat1 V c).before 5 t d = blockAt1 V c 5 t :=
  ((layerDat1 V c).before_in_eq_fetched 5 rfl (fun _ => rfl) (fun _ _ _ => rfl) (fun _ => rfl) t d).trans rfl

private theorem layer_body (c : Dev nD) (t : Fin cfg1.N) :
    iprop((layerDat1 V c).Φ t.castSucc ∗ (layerDat1 V c).owesAt () t.castSucc
    ∗ (∃ d, owns (c : Thread nD τ) (st1_0 t) fullShare ((layerDat1 V c).before 0 t d))
    ∗ (∃ d, owns (c : Thread nD τ) (st1_1 t) fullShare ((layerDat1 V c).before 1 t d))
    ∗ (∃ d, owns (c : Thread nD τ) (st1_2 t) fullShare ((layerDat1 V c).before 2 t d))
    ∗ (∃ d, owns (c : Thread nD τ) (st1_3 t) fullShare ((layerDat1 V c).before 3 t d))
    ∗ (∃ d, owns (c : Thread nD τ) (st1_4 t) fullShare ((layerDat1 V c).before 4 t d))
    ∗ (∃ d, owns (c : Thread nD τ) (st1_5 t) fullShare ((layerDat1 V c).before 5 t d))
    ∗ (∃ d, owns (c : Thread nD τ) (st1_6 t) fullShare ((layerDat1 V c).before 6 t d)))
      ⊢ wp frame (wpE (defs₀ (F := F)) Variants.none c none) Set.univ (bodyAt1 t) (fun _ =>
        iprop((layerDat1 V c).Φ t.succ ∗ (layerDat1 V c).owesAt () t.succ
        ∗ owns (c : Thread nD τ) (st1_0 t) fullShare ((layerDat1 V c).after 0 t)
        ∗ owns (c : Thread nD τ) (st1_1 t) fullShare ((layerDat1 V c).after 1 t)
        ∗ owns (c : Thread nD τ) (st1_2 t) fullShare ((layerDat1 V c).after 2 t)
        ∗ owns (c : Thread nD τ) (st1_3 t) fullShare ((layerDat1 V c).after 3 t)
        ∗ owns (c : Thread nD τ) (st1_4 t) fullShare ((layerDat1 V c).after 4 t)
        ∗ owns (c : Thread nD τ) (st1_5 t) fullShare ((layerDat1 V c).after 5 t)
        ∗ owns (c : Thread nD τ) (st1_6 t) fullShare ((layerDat1 V c).after 6 t))) := by
  unfold bodyAt1
  simp only [layerDat1_before0, layerDat1_before1, layerDat1_before2, layerDat1_before3, layerDat1_before4, layerDat1_before5]
  rw [show (layerDat1 V c).Φ t.succ = (layerDat1 V c).Φ t.castSucc from rfl,
    show (layerDat1 V c).owesAt () t.succ = (layerDat1 V c).owesAt () t.castSucc from rfl]
  dsimp only [layerDat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer_sound c Set.univ _ _ _ _ _ _ _ _ _ _ _ _ _ _ _ (blockAt1 V c 0 t) (blockAt1 V c 1 t) (blockAt1 V c 2 t)
    (blockAt1 V c 3 t) (blockAt1 V c 4 t) (blockAt1 V c 5 t) _)
  iframe H0 H1 H2 H3 H4 H5
  isplitl [H6]; · iexists _; iexact H6
  iintro ⟨H0, H1, H2, H3, H4, H5, H6⟩
  iframe

theorem layer_obligation1 (c : Dev nD) : BodyObligation (layerDat1 (F := F) V c) (defs₀ (F := F)) Variants.none () Set.univ := fun t => by
  rw [bigSep_W1, bigSep_W1]
  exact layer_body V c t

end Cert.Kernel.Hand

end
-- ==== Proof.HandKernel.Layer2.lean ====
import proofs.«426644_j22574348108036_2_alg».proof.Proof.Gen.Kernel.Launch
import proofs.«426644_j22574348108036_2_alg».proof.Proof.Gen.Kernel.Skeleton
import proofs.«426644_j22574348108036_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

private abbrev rowsRect : Rect S5000x128 := Rect.unit (s := S5000x128) ![0, 0] S5000x128.size inb_S5000x128_S5000x128_0_0

private abbrev degRect : Rect S5000x1 := Rect.unit (s := S5000x1) ![0, 0] S5000x1.size inb_S5000x1_S5000x1_0_0

private abbrev weightRect : Rect S128x128 := Rect.unit (s := S128x128) ![0, 0] S128x128.size inb_S128x128_S128x128_0_0

private abbrev biasRect : Rect S1x128 := Rect.unit (s := S1x128) ![0, 0] S1x128.size inb_S1x128_S1x128_0_0

/-- What the one whole-buffer store leaves in the result block: the layer's value on the six input blocks. -/
def layerOut2 (a : Vec F S5000x128 .f32) (d : Vec F S5000x1 .f32) (h : Vec F S5000x128 .f32) (wl : Vec F S128x128 .f32)
    (b : Vec F S1x128 .f32) (wr : Vec F S128x128 .f32) : Vec F S5000x128 .f32 :=
  View.canon [⟨rowsRect, k2_pay1 (View.ld a rowsRect) (View.ld d degRect) (View.ld h rowsRect) (View.ld wl weightRect)
    (View.ld wr weightRect) (View.ld b biasRect)⟩]

private theorem zeroOffsets : (![0, 0] : Fin 2 → Nat) = fun _ => 0 :=
  funext fun a => by match a with | ⟨0, _⟩ => rfl | ⟨1, _⟩ => rfl

theorem layerOut2_eq (a : Vec F S5000x128 .f32) (d : Vec F S5000x1 .f32) (h : Vec F S5000x128 .f32) (wl : Vec F S128x128 .f32)
    (b : Vec F S1x128 .f32) (wr : Vec F S128x128 .f32) : layerOut2 a d h wl b wr = k2_pay1 a d h wl wr b := by
  unfold layerOut2
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]

private theorem layerOut2_cover (p : Vec F S5000x128 .f32) (y : S5000x128.Idx) :
    ∃ pc ∈ ([⟨rowsRect, p⟩] : List (View.Piece (Elt F) S5000x128 .f32)), y ∈ pc.1.set :=
  View.cover_of_tiled [⟨rowsRect, p⟩] S5000x128.size (by rfl) y

/-- The body loads six whole blocks and stores the layer's value over the whole seventh. -/
private theorem layer_sound (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S5000x128 .f32) (harg7 : arg7.IsWhole)
    (a : Vec F S5000x128 .f32) (d : Vec F S5000x1 .f32) (h : Vec F S5000x128 .f32) (wl : Vec F S128x128 .f32)
    (b : Vec F S1x128 .f32) (wr : Vec F S128x128 .f32) (K : PUnit → sProp 𝕄) :
    iprop(owns (c : Thread nD τ) arg1 fullShare a ∗ owns (c : Thread nD τ) arg2 fullShare d ∗ owns (c : Thread nD τ) arg3 fullShare h
        ∗ owns (c : Thread nD τ) arg4 fullShare wl ∗ owns (c : Thread nD τ) arg5 fullShare b ∗ owns (c : Thread nD τ) arg6 fullShare wr
        ∗ (∃ o, owns (c : Thread nD τ) arg7 fullShare o)
        ∗ (iprop(owns (c : Thread nD τ) arg1 fullShare a ∗ owns (c : Thread nD τ) arg2 fullShare d ∗ owns (c : Thread nD τ) arg3 fullShare h
            ∗ owns (c : Thread nD τ) arg4 fullShare wl ∗ owns (c : Thread nD τ) arg5 fullShare b ∗ owns (c : Thread nD τ) arg6 fullShare wr
            ∗ owns (c : Thread nD τ) arg7 fullShare (layerOut2 a d h wl b wr)) -∗ K ⟨⟩))
      ⊢ wp frame (wpE (defs₀ (F := F)) Variants.none c none) E
          (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%o, %f7, -, H7⟩, Hk⟩
  subst hf1 hf2 hf3 hf4 hf5 hf6
  sl_exec
  sl_step
  iapply Hk
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  iexists _; isplitr; swap; iexact H7
  · ipureintro; exact View.read_writes_eq_canon _ _ _ (layerOut2_cover _)
  all_goals (ipureintro; rfl)

/-- Each input block is left as found; the result block holds the layer's value of the point's input blocks. -/
def layerDat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => blockAt2 V c 5 t
    | ⟨6, _⟩ => layerOut2 (blockAt2 V c 0 t) (blockAt2 V c 1 t) (blockAt2 V c 2 t) (blockAt2 V c 3 t) (blockAt2 V c 4 t) (blockAt2 V c 5 t)
  Φ _ := Pipeline.ΦA spec2 c
  q _ := fullShare
  owed _ := 0

theorem layerDat2_A (c : Dev nD) (w : Fin cfg2.W) : (layerDat2 V c).A w = V c (Pipeline.arrRef spec2 w) := by
  dsimp only [layerDat2]

theorem layerDat2_after6 (c : Dev nD) (t : Fin cfg2.N) : (layerDat2 V c).after 6 t =
    layerOut2 (blockAt2 V c 0 t) (blockAt2 V c 1 t) (blockAt2 V c 2 t) (blockAt2 V c 3 t) (blockAt2 V c 4 t) (blockAt2 V c 5 t) := by
  dsimp only [layerDat2]

private theorem layerDat2_before0 (c : Dev nD) (t : Fin cfg2.N) (d) : (layerDat2 V c).before 0 t d = blockAt2 V c 0 t :=
  ((layerDat2 V c).before_in_eq_fetched 0 rfl (fun _ => rfl) (fun _ _ _ => rfl) (fun _ => rfl) t d).trans rfl
private theorem layerDat2_before1 (c : Dev nD) (t : Fin cfg2.N) (d) : (layerDat2 V c).before 1 t d = blockAt2 V c 1 t :=
  ((layerDat2 V c).before_in_eq_fetched 1 rfl (fun _ => rfl) (fun _ _ _ => rfl) (fun _ => rfl) t d).trans rfl
private theorem layerDat2_before2 (c : Dev nD) (t : Fin cfg2.N) (d) : (layerDat2 V c).before 2 t d = blockAt2 V c 2 t :=
  ((layerDat2 V c).before_in_eq_fetched 2 rfl (fun _ => rfl) (fun _ _ _ => rfl) (fun _ => rfl) t d).trans rfl
private theorem layerDat2_before3 (c : Dev nD) (t : Fin cfg2.N) (d) : (layerDat2 V c).before 3 t d = blockAt2 V c 3 t :=
  ((layerDat2 V c).before_in_eq_fetched 3 rfl (fun _ => rfl) (fun _ _ _ => rfl) (fun _ => rfl) t d).trans rfl
private theorem layerDat2_before4 (c : Dev nD) (t : Fin cfg2.N) (d) : (layerDat2 V c).before 4 t d = blockAt2 V c 4 t :=
  ((layerDat2 V c).before_in_eq_fetched 4 rfl (fun _ => rfl) (fun _ _ _ => rfl) (fun _ => rfl) t d).trans rfl
private theorem layerDat2_before5 (c : Dev nD) (t : Fin cfg2.N) (d) : (layerDat2 V c).before 5 t d = blockAt2 V c 5 t :=
  ((layerDat2 V c).before_in_eq_fetched 5 rfl (fun _ => rfl) (fun _ _ _ => rfl) (fun _ => rfl) t d).trans rfl

private theorem layer_body (c : Dev nD) (t : Fin cfg2.N) :
    iprop((layerDat2 V c).Φ t.castSucc ∗ (layerDat2 V c).owesAt () t.castSucc
    ∗ (∃ d, owns (c : Thread nD τ) (st2_0 t) fullShare ((layerDat2 V c).before 0 t d))
    ∗ (∃ d, owns (c : Thread nD τ) (st2_1 t) fullShare ((layerDat2 V c).before 1 t d))
    ∗ (∃ d, owns (c : Thread nD τ) (st2_2 t) fullShare ((layerDat2 V c).before 2 t d))
    ∗ (∃ d, owns (c : Thread nD τ) (st2_3 t) fullShare ((layerDat2 V c).before 3 t d))
    ∗ (∃ d, owns (c : Thread nD τ) (st2_4 t) fullShare ((layerDat2 V c).before 4 t d))
    ∗ (∃ d, owns (c : Thread nD τ) (st2_5 t) fullShare ((layerDat2 V c).before 5 t d))
    ∗ (∃ d, owns (c : Thread nD τ) (st2_6 t) fullShare ((layerDat2 V c).before 6 t d)))
      ⊢ wp frame (wpE (defs₀ (F := F)) Variants.none c none) Set.univ (bodyAt2 t) (fun _ =>
        iprop((layerDat2 V c).Φ t.succ ∗ (layerDat2 V c).owesAt () t.succ
        ∗ owns (c : Thread nD τ) (st2_0 t) fullShare ((layerDat2 V c).after 0 t)
        ∗ owns (c : Thread nD τ) (st2_1 t) fullShare ((layerDat2 V c).after 1 t)
        ∗ owns (c : Thread nD τ) (st2_2 t) fullShare ((layerDat2 V c).after 2 t)
        ∗ owns (c : Thread nD τ) (st2_3 t) fullShare ((layerDat2 V c).after 3 t)
        ∗ owns (c : Thread nD τ) (st2_4 t) fullShare ((layerDat2 V c).after 4 t)
        ∗ owns (c : Thread nD τ) (st2_5 t) fullShare ((layerDat2 V c).after 5 t)
        ∗ owns (c : Thread nD τ) (st2_6 t) fullShare ((layerDat2 V c).after 6 t))) := by
  unfold bodyAt2
  simp only [layerDat2_before0, layerDat2_before1, layerDat2_before2, layerDat2_before3, layerDat2_before4, layerDat2_before5]
  rw [show (layerDat2 V c).Φ t.succ = (layerDat2 V c).Φ t.castSucc from rfl,
    show (layerDat2 V c).owesAt () t.succ = (layerDat2 V c).owesAt () t.castSucc from rfl]
  dsimp only [layerDat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer_sound c Set.univ _ _ _ _ _ _ _ _ _ _ _ _ _ _ _ (blockAt2 V c 0 t) (blockAt2 V c 1 t) (blockAt2 V c 2 t)
    (blockAt2 V c 3 t) (blockAt2 V c 4 t) (blockAt2 V c 5 t) _)
  iframe H0 H1 H2 H3 H4 H5
  isplitl [H6]; · iexists _; iexact H6
  iintro ⟨H0, H1, H2, H3, H4, H5, H6⟩
  iframe

theorem layer_obligation2 (c : Dev nD) : BodyObligation (layerDat2 (F := F) V c) (defs₀ (F := F)) Variants.none () Set.univ := fun t => by
  rw [bigSep_W2, bigSep_W2]
  exact layer_body V c t

end Cert.Kernel.Hand

end
-- ==== Proof.HandKernel.PoolRuns.lean ====
import proofs.«426644_j22574348108036_2_alg».proof.Proof.Gen.Kernel.Launch
import proofs.«426644_j22574348108036_2_alg».proof.Proof.Gen.Kernel.Skeleton
import proofs.«426644_j22574348108036_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev isFirst (i : grid3.Coords) : Prop := (Scalar.cmpi .ne (Scalar.extui (Scalar.cmpi .eq (BitVec.ofNat 32 (i 0).val) 0#32)) 0#32) = 1#1
theorem isFirst_iff : ∀ t : Fin cfg3.N, isFirst (grid3.coords t) ↔ t.val % 10 = 0 :=
  (by decide +kernel : ∀ t : Fin grid3.N, isFirst (grid3.coords t) ↔ t.val % 10 = 0)

abbrev isLast (i : grid3.Coords) : Prop := k3_cond2 i = 1#1
theorem isLast_iff : ∀ t : Fin cfg3.N, isLast (grid3.coords t) ↔ t.val % 10 = 9 :=
  (by decide +kernel : ∀ t : Fin grid3.N, isLast (grid3.coords t) ↔ t.val % 10 = 9)

theorem off00 : (![0, 0] : Fin 2 → ℕ) = fun _ => 0 := by funext a; fin_cases a <;> rfl

theorem readAt_unit {S : Shape} {e : EltTy} {off : Fin S.rank → ℕ} (hoff : off = fun _ => 0)
    (inb : ∀ a, off a + S.size a ≤ S.size a) (m : Memref sig .tc .vmem S e) (f : m.view.ty.Contents (Elt F)) :
    m.view.readAt (Elt F) (Rect.unit off S.size inb).toLoadRect f = m.view.read (Elt F) f := by
  rw [View.readAt_eq_ld, View.ld_unit_zero hoff]

theorem read_writes_unit {S : Shape} {e : EltTy} {off : Fin S.rank → ℕ} (hoff : off = fun _ => 0)
    (inb : ∀ a, off a + S.size a ≤ S.size a) (m : Memref sig .tc .vmem S e) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hoff inb y⟩), View.canon_cons_unit_zero hoff]

/-- One step of the segmented sum: both accumulators take this block's contribution, over zero at the first point; the head is stored at the last point only. -/
theorem runBody (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x1 .i32) (harg4 : arg4.IsWhole) (arg5 : Memref sig .tc .vmem S384x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x384 .f32) (harg10 : arg10.IsWhole) (arg11 : Memref sig .tc .vmem S512x1 .f32) (harg11 : arg11.IsWhole)
    (hfl : isFirst i → ¬isLast i)
    (x0 x1 x2 : Vec F S5000x128 .f32) (ids : Vec F S5000x1 .i32) (w1 : Vec F S384x128 .f32) (b1 : Vec F S1x128 .f32)
    (w2 : Vec F S128x10 .f32) (b2 : Vec F S1x10 .f32) (xo : Vec F S512x10 .f32)
    (s0 : Vec F S512x384 .f32) (s1 : Vec F S512x1 .f32) (z0 : Vec F S512x384 .f32) (z1 : Vec F S512x1 .f32) (o : Vec F S512x10 .f32)
    (hz0 : z0 = if isFirst i then k3_pay2 else s0) (hz1 : z1 = if isFirst i then k3_pay3 else s1)
    (ho : o = if isLast i then k3_pay1 (k3_pay5 ids x0 x1 x2 z0) (k3_pay6 ids z1) w1 b1 w2 b2 else xo)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare ids ∗ owns (c : Thread nD τ) arg5 fullShare w1 ∗ owns (c : Thread nD τ) arg6 fullShare b1 ∗ owns (c : Thread nD τ) arg7 fullShare w2 ∗ owns (c : Thread nD τ) arg8 fullShare b2 ∗ owns (c : Thread nD τ) arg9 fullShare xo ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare ids ∗ owns (c : Thread nD τ) arg5 fullShare w1 ∗ owns (c : Thread nD τ) arg6 fullShare b1 ∗ owns (c : Thread nD τ) arg7 fullShare w2 ∗ owns (c : Thread nD τ) arg8 fullShare b2 ∗ owns (c : Thread nD τ) arg9 fullShare o ∗ owns (c : Thread nD τ) arg10 fullShare (k3_pay5 ids x0 x1 x2 z0) ∗ owns (c : Thread nD τ) arg11 fullShare (k3_pay6 ids z1)) -∗ K ⟨⟩))
      ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11) K := by
  subst ho hz0 hz1
  by_cases hf : isFirst i <;> by_cases hl : isLast i
  · exact absurd hl (hfl hf)
  all_goals
    first | rw [if_pos hf, if_pos hf] | rw [if_neg hf, if_neg hf]
    first | rw [if_pos hl] | rw [if_neg hl]
    simp only [cc3__pool_mlp_kernel_eq_skeleton]; unfold cc3__pool_mlp_kernel_skel
    simp only [k3_part1_eq_skeleton]; unfold k3_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    subst hf1 hf2 hf3 hf4 hf5 hf6 hf7 hf8 hf9 hf10 hf11
    sl_exec (disch := first | exact hf | exact hl)
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    isplitl [H8]; iexists _; isplitr; swap; iexact H8; rotate_left
    isplitl [H9]; iexists _; isplitr; swap; iexact H9; rotate_left
    isplitl [H10]; iexists _; isplitr; swap; iexact H10; rotate_left
    iexists _; isplitr; swap; iexact H11
    all_goals ipureintro
    all_goals first | (sl_unfold_run_names; simp only [read_writes_unit (S := S512x384) off00,
      read_writes_unit (S := S512x1) off00, read_writes_unit (S := S512x10) off00, readAt_unit (S := S5000x1) off00,
      readAt_unit (S := S5000x128) off00, readAt_unit (S := S512x384) off00, readAt_unit (S := S512x1) off00,
      readAt_unit (S := S384x128) off00, readAt_unit (S := S1x128) off00, readAt_unit (S := S128x10) off00,
      readAt_unit (S := S1x10) off00, readAt_unit (S := S512x10) off00,
      View.readCov_unit_zero (S := S512x384) _ off00, View.readCov_unit_zero (S := S512x1) _ off00]; done) | rfl

end Cert.Kernel.Hand

end
-- ==== Proof.HandKernel.Pool.lean ====
import proofs.«426644_j22574348108036_2_alg».proof.Proof.HandKernel.PoolRuns

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled sums and the counts after point `n`: this block's contribution over zero at the first point, over the point before afterwards. -/
def poolAcc (c : Dev nD) : (n : ℕ) → n < cfg3.N → Vec F S512x384 .f32 × Vec F S512x1 .f32
  | 0, h => (k3_pay5 (blockAt3 V c 3 ⟨0, h⟩) (blockAt3 V c 0 ⟨0, h⟩) (blockAt3 V c 1 ⟨0, h⟩) (blockAt3 V c 2 ⟨0, h⟩) k3_pay2,
      k3_pay6 (blockAt3 V c 3 ⟨0, h⟩) k3_pay3)
  | n + 1, h => (k3_pay5 (blockAt3 V c 3 ⟨n + 1, h⟩) (blockAt3 V c 0 ⟨n + 1, h⟩) (blockAt3 V c 1 ⟨n + 1, h⟩) (blockAt3 V c 2 ⟨n + 1, h⟩) (poolAcc c n (Nat.lt_of_succ_lt h)).1,
      k3_pay6 (blockAt3 V c 3 ⟨n + 1, h⟩) (poolAcc c n (Nat.lt_of_succ_lt h)).2)

theorem poolAcc_zero (c : Dev nD) (h : 0 < cfg3.N) :
    poolAcc V c 0 h = (k3_pay5 (blockAt3 V c 3 ⟨0, h⟩) (blockAt3 V c 0 ⟨0, h⟩) (blockAt3 V c 1 ⟨0, h⟩) (blockAt3 V c 2 ⟨0, h⟩) k3_pay2,
      k3_pay6 (blockAt3 V c 3 ⟨0, h⟩) k3_pay3) := rfl

theorem poolAcc_succ (c : Dev nD) (n : ℕ) (h : n + 1 < cfg3.N) :
    poolAcc V c (n + 1) h = (k3_pay5 (blockAt3 V c 3 ⟨n + 1, h⟩) (blockAt3 V c 0 ⟨n + 1, h⟩) (blockAt3 V c 1 ⟨n + 1, h⟩) (blockAt3 V c 2 ⟨n + 1, h⟩) (poolAcc V c n (Nat.lt_of_succ_lt h)).1,
      k3_pay6 (blockAt3 V c 3 ⟨n + 1, h⟩) (poolAcc V c n (Nat.lt_of_succ_lt h)).2) := rfl

theorem poolAcc_first (c : Dev nD) (t : Fin cfg3.N) (h0 : t.val % 10 = 0) :
    poolAcc V c t.val t.isLt = (k3_pay5 (blockAt3 V c 3 t) (blockAt3 V c 0 t) (blockAt3 V c 1 t) (blockAt3 V c 2 t) k3_pay2,
      k3_pay6 (blockAt3 V c 3 t) k3_pay3) := by
  obtain ⟨n, hn⟩ := t
  cases n with
  | zero => rfl
  | succ n => exfalso; have hN : n + 1 < 10 := lt_of_lt_of_eq hn (show cfg3.N = 10 from N_3); (try dsimp only at h0); omega

theorem poolAcc_later (c : Dev nD) (t : Fin cfg3.N) (h0 : ¬t.val % 10 = 0) :
    poolAcc V c t.val t.isLt = (k3_pay5 (blockAt3 V c 3 t) (blockAt3 V c 0 t) (blockAt3 V c 1 t) (blockAt3 V c 2 t) (poolAcc V c (t.val - 1) (Nat.lt_of_le_of_lt (Nat.sub_le _ _) t.isLt)).1,
      k3_pay6 (blockAt3 V c 3 t) (poolAcc V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => rfl

theorem nine_lt : 9 < cfg3.N := by rw [show cfg3.N = 10 from N_3]; decide

/-- The readout of the pooled sums and counts after the last point. -/
def poolOut (c : Dev nD) : Vec F S512x10 .f32 :=
  k3_pay1 (poolAcc V c 9 nine_lt).1 (poolAcc V c 9 nine_lt).2 (blockAt3 V c 4 t3_9) (blockAt3 V c 5 t3_9) (blockAt3 V c 6 t3_9) (blockAt3 V c 7 t3_9)

abbrev sumsM : Memref sig .tc .vmem S512x384 .f32 := Memref.whole cc3_scratch0
abbrev countsM : Memref sig .tc .vmem S512x1 .f32 := Memref.whole cc3_scratch1

theorem PhiA_eq (c : Dev nD) :
    (Pipeline.ΦA spec3 c : sProp 𝕄)
      = iprop(iprop(iprop((∃ d, owns (c : Thread nD τ) sumsM fullShare d) ∗ (∃ d, owns (c : Thread nD τ) countsM fullShare d))
          ∗ Pipeline.scopedRestBut spec3 c [cc3_scratch0, cc3_scratch1]) ∗ (∃ r, prngReg c r)) := by
  unfold Pipeline.ΦA; rw [scopedRest3_split]; simp only [sumsM, countsM, owns_whole]; try rfl

/-- Before the first point the two accumulators hold anything; afterwards what the point before left. -/
def PhiS (c : Dev nD) : (n : ℕ) → n ≤ cfg3.N → sProp 𝕄
  | 0, _ => Pipeline.ΦA spec3 c
  | n + 1, hn => iprop(iprop(iprop(owns (c : Thread nD τ) sumsM fullShare (poolAcc V c n hn).1 ∗ owns (c : Thread nD τ) countsM fullShare (poolAcc V c n hn).2)
      ∗ Pipeline.scopedRestBut spec3 c [cc3_scratch0, cc3_scratch1]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) sumsM fullShare (poolAcc V c n hn).1 ∗ owns (c : Thread nD τ) countsM fullShare (poolAcc V c n hn).2)
      ∗ Pipeline.scopedRestBut spec3 c [cc3_scratch0, cc3_scratch1]) ∗ (∃ r, prngReg c r)) := rfl

theorem PhiS_pos (c : Dev nD) (n : ℕ) (h : n ≤ cfg3.N) (hz : n ≠ 0) :
    PhiS V c n h = iprop(iprop(iprop(owns (c : Thread nD τ) sumsM fullShare (poolAcc V c (n - 1) (by omega)).1 ∗ owns (c : Thread nD τ) countsM fullShare (poolAcc V c (n - 1) (by omega)).2)
      ∗ Pipeline.scopedRestBut spec3 c [cc3_scratch0, cc3_scratch1]) ∗ (∃ r, prngReg c r)) := by
  cases n with
  | zero => exact absurd rfl hz
  | succ n => rfl

def poolDat (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => blockAt3 V c 5 t
    | ⟨6, _⟩ => blockAt3 V c 6 t
    | ⟨7, _⟩ => blockAt3 V c 7 t
    | ⟨8, _⟩ => poolOut V c
  Φ t := PhiS V c t.val (Nat.le_of_lt_succ t.isLt)
  q _ := fullShare
  owed _ := 0

theorem poolDat_A (c : Dev nD) (w : Fin cfg3.W) : (poolDat V c).A w = V c (Pipeline.arrRef spec3 w) := by
  dsimp only [poolDat]

theorem poolDat_after_last (c : Dev nD) : (poolDat V c).after 8 t3_9 = poolOut V c := by dsimp only [poolDat]

private theorem Phi_castSucc (c : Dev nD) (t : Fin cfg3.N) :
    (poolDat V c).Φ t.castSucc = PhiS V c t.val (Nat.le_of_lt t.isLt) := by
  dsimp only [poolDat]; simp only [Fin.coe_castSucc]

private theorem before_0 (c : Dev nD) (t : Fin cfg3.N) (d) : (poolDat V c).before 0 t d = blockAt3 V c 0 t :=
  ((poolDat V c).before_in_eq_fetched 0 rfl (fun _ => rfl) (fun _ _ _ => rfl) (fun _ => rfl) t d).trans rfl
private theorem before_1 (c : Dev nD) (t : Fin cfg3.N) (d) : (poolDat V c).before 1 t d = blockAt3 V c 1 t :=
  ((poolDat V c).before_in_eq_fetched 1 rfl (fun _ => rfl) (fun _ _ _ => rfl) (fun _ => rfl) t d).trans rfl
private theorem before_2 (c : Dev nD) (t : Fin cfg3.N) (d) : (poolDat V c).before 2 t d = blockAt3 V c 2 t :=
  ((poolDat V c).before_in_eq_fetched 2 rfl (fun _ => rfl) (fun _ _ _ => rfl) (fun _ => rfl) t d).trans rfl
private theorem before_3 (c : Dev nD) (t : Fin cfg3.N) (d) : (poolDat V c).before 3 t d = blockAt3 V c 3 t :=
  ((poolDat V c).before_in_eq_fetched 3 rfl (fun _ => rfl) (fun _ _ _ => rfl) (fun _ => rfl) t d).trans rfl
private theorem before_4 (c : Dev nD) (t : Fin cfg3.N) (d) : (poolDat V c).before 4 t d = blockAt3 V c 4 t :=
  ((poolDat V c).before_in_eq_fetched 4 rfl (fun _ => rfl) (fun _ _ _ => rfl) (fun _ => rfl) t d).trans rfl
private theorem before_5 (c : Dev nD) (t : Fin cfg3.N) (d) : (poolDat V c).before 5 t d = blockAt3 V c 5 t :=
  ((poolDat V c).before_in_eq_fetched 5 rfl (fun _ => rfl) (fun _ _ _ => rfl) (fun _ => rfl) t d).trans rfl
private theorem before_6 (c : Dev nD) (t : Fin cfg3.N) (d) : (poolDat V c).before 6 t d = blockAt3 V c 6 t :=
  ((poolDat V c).before_in_eq_fetched 6 rfl (fun _ => rfl) (fun _ _ _ => rfl) (fun _ => rfl) t d).trans rfl
private theorem before_7 (c : Dev nD) (t : Fin cfg3.N) (d) : (poolDat V c).before 7 t d = blockAt3 V c 7 t :=
  ((poolDat V c).before_in_eq_fetched 7 rfl (fun _ => rfl) (fun _ _ _ => rfl) (fun _ => rfl) t d).trans rfl

private theorem liveAt : ∀ (t : Fin cfg3.N) (w : Fin cfg3.W), w ≠ 8 → cfg3.idle w (grid3.coords t) = false := by decide +kernel

private theorem idleAt_8 : ∀ t : Fin cfg3.N, ¬isLast (grid3.coords t) → cfg3.idle 8 (grid3.coords t) = true := by decide +kernel

private theorem noFlush_8 : ∀ t : Fin cfg3.N, ¬isLast (grid3.coords t) → (cfg3.win 8).flush t = false := by decide +kernel

private theorem liveAt_8 : ∀ t : Fin cfg3.N, isLast (grid3.coords t) → cfg3.idle 8 (grid3.coords t) = false := by decide +kernel

private theorem leaves_0 (c : Dev nD) (t : Fin cfg3.N) : (poolDat V c).leavesExact 0 t = owns (c : Thread nD τ) (st3_0 t) fullShare (blockAt3 V c 0 t) := by
  unfold Dat.leavesExact; rw [liveAt t 0 (by decide)]; rfl
private theorem leaves_1 (c : Dev nD) (t : Fin cfg3.N) : (poolDat V c).leavesExact 1 t = owns (c : Thread nD τ) (st3_1 t) fullShare (blockAt3 V c 1 t) := by
  unfold Dat.leavesExact; rw [liveAt t 1 (by decide)]; rfl
private theorem leaves_2 (c : Dev nD) (t : Fin cfg3.N) : (poolDat V c).leavesExact 2 t = owns (c : Thread nD τ) (st3_2 t) fullShare (blockAt3 V c 2 t) := by
  unfold Dat.leavesExact; rw [liveAt t 2 (by decide)]; rfl
private theorem leaves_3 (c : Dev nD) (t : Fin cfg3.N) : (poolDat V c).leavesExact 3 t = owns (c : Thread nD τ) (st3_3 t) fullShare (blockAt3 V c 3 t) := by
  unfold Dat.leavesExact; rw [liveAt t 3 (by decide)]; rfl
private theorem leaves_4 (c : Dev nD) (t : Fin cfg3.N) : (poolDat V c).leavesExact 4 t = owns (c : Thread nD τ) (st3_4 t) fullShare (blockAt3 V c 4 t) := by
  unfold Dat.leavesExact; rw [liveAt t 4 (by decide)]; rfl
private theorem leaves_5 (c : Dev nD) (t : Fin cfg3.N) : (poolDat V c).leavesExact 5 t = owns (c : Thread nD τ) (st3_5 t) fullShare (blockAt3 V c 5 t) := by
  unfold Dat.leavesExact; rw [liveAt t 5 (by decide)]; rfl
private theorem leaves_6 (c : Dev nD) (t : Fin cfg3.N) : (poolDat V c).leavesExact 6 t = owns (c : Thread nD τ) (st3_6 t) fullShare (blockAt3 V c 6 t) := by
  unfold Dat.leavesExact; rw [liveAt t 6 (by decide)]; rfl
private theorem leaves_7 (c : Dev nD) (t : Fin cfg3.N) : (poolDat V c).leavesExact 7 t = owns (c : Thread nD τ) (st3_7 t) fullShare (blockAt3 V c 7 t) := by
  unfold Dat.leavesExact; rw [liveAt t 7 (by decide)]; rfl

private theorem after_8_last (c : Dev nD) (t : Fin cfg3.N) (h9 : t.val % 10 = 9) :
    (poolDat V c).after 8 t = k3_pay1
      (k3_pay5 (blockAt3 V c 3 t) (blockAt3 V c 0 t) (blockAt3 V c 1 t) (blockAt3 V c 2 t) (poolAcc V c (t.val - 1) (Nat.lt_of_le_of_lt (Nat.sub_le _ _) t.isLt)).1)
      (k3_pay6 (blockAt3 V c 3 t) (poolAcc V c (t.val - 1) (Nat.lt_of_le_of_lt (Nat.sub_le _ _) t.isLt)).2)
      (blockAt3 V c 4 t) (blockAt3 V c 5 t) (blockAt3 V c 6 t) (blockAt3 V c 7 t) := by
  have hN : t.val < 10 := lt_of_lt_of_eq t.isLt (show cfg3.N = 10 from N_3)
  obtain rfl : t = t3_9 := Fin.ext (by show t.val = 9; omega)
  rfl

private def bodyPre (c : Dev nD) (t : Fin cfg3.N) : sProp 𝕄 :=
  iprop((poolDat V c).Φ t.castSucc ∗ (poolDat V c).owesAt () t.castSucc
    ∗ (∃ d, owns (c : Thread nD τ) (st3_0 t) fullShare ((poolDat V c).before 0 t d))
    ∗ (∃ d, owns (c : Thread nD τ) (st3_1 t) fullShare ((poolDat V c).before 1 t d))
    ∗ (∃ d, owns (c : Thread nD τ) (st3_2 t) fullShare ((poolDat V c).before 2 t d))
    ∗ (∃ d, owns (c : Thread nD τ) (st3_3 t) fullShare ((poolDat V c).before 3 t d))
    ∗ (∃ d, owns (c : Thread nD τ) (st3_4 t) fullShare ((poolDat V c).before 4 t d))
    ∗ (∃ d, owns (c : Thread nD τ) (st3_5 t) fullShare ((poolDat V c).before 5 t d))
    ∗ (∃ d, owns (c : Thread nD τ) (st3_6 t) fullShare ((poolDat V c).before 6 t d))
    ∗ (∃ d, owns (c : Thread nD τ) (st3_7 t) fullShare ((poolDat V c).before 7 t d))
    ∗ (∃ d, owns (c : Thread nD τ) (st3_8 t) fullShare ((poolDat V c).before 8 t d)))

private def bodyPost (c : Dev nD) (t : Fin cfg3.N) : sProp 𝕄 :=
  iprop((poolDat V c).Φ t.succ ∗ (poolDat V c).owesAt () t.succ
    ∗ (poolDat V c).leavesExact 0 t
    ∗ (poolDat V c).leavesExact 1 t
    ∗ (poolDat V c).leavesExact 2 t
    ∗ (poolDat V c).leavesExact 3 t
    ∗ (poolDat V c).leavesExact 4 t
    ∗ (poolDat V c).leavesExact 5 t
    ∗ (poolDat V c).leavesExact 6 t
    ∗ (poolDat V c).leavesExact 7 t
    ∗ (poolDat V c).leavesExact 8 t)

private theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7]
  rw [show (poolDat V c).owesAt () t.succ = (poolDat V c).owesAt () t.castSucc from rfl]
  rw [show (poolDat V c).Φ t.succ = PhiS V c (t.val + 1) t.isLt from rfl, PhiS_succ]
  rw [leaves_0, leaves_1, leaves_2, leaves_3, leaves_4, leaves_5, leaves_6, leaves_7]
  have hN : t.val < 10 := lt_of_lt_of_eq t.isLt (show cfg3.N = 10 from N_3)
  have hfl : isFirst (grid3.coords t) → ¬isLast (grid3.coords t) := fun hf hl => by
    have := (isFirst_iff t).mp hf; have := (isLast_iff t).mp hl; omega
  by_cases h0 : t.val % 10 = 0
  · have hL : ¬isLast (grid3.coords t) := fun h => by have := (isLast_iff t).mp h; omega
    rw [Dat.leavesExact_idle (poolDat V c) 8 t (idleAt_8 t hL) (noFlush_8 t hL), poolAcc_first V c t h0]; dsimp only
    rw [Phi_castSucc V c t, PhiS_zero V c _ _ (by omega), PhiA_eq]
    iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runBody c (grid3.coords t) _ _ _ _ _ _ _ _ _ _ _ _ _ _ _ _ _ _ _ _ _ _ hfl (blockAt3 V c 0 t) (blockAt3 V c 1 t) (blockAt3 V c 2 t) (blockAt3 V c 3 t) (blockAt3 V c 4 t) (blockAt3 V c 5 t) (blockAt3 V c 6 t) (blockAt3 V c 7 t) _ _ _ _ _ _
      (if_pos ((isFirst_iff t).mpr h0)).symm (if_pos ((isFirst_iff t).mpr h0)).symm (if_neg hL).symm Set.univ _)
    iframe H0 H1 H2 H3 H4 H5 H6 H7 H8 HS0 HS1
    iintro ⟨H0, H1, H2, H3, H4, H5, H6, H7, H8, HS0, HS1⟩
    iframe
    iexists _; iexact H8
  · have hF : ¬isFirst (grid3.coords t) := fun h => h0 ((isFirst_iff t).mp h)
    rw [poolAcc_later V c t h0]; dsimp only
    rw [Phi_castSucc V c t, PhiS_pos V c _ _ (by omega)]
    by_cases h9 : t.val % 10 = 9
    · rw [show (poolDat V c).leavesExact 8 t = owns (c : Thread nD τ) (st3_8 t) fullShare ((poolDat V c).after 8 t) from by
        unfold Dat.leavesExact; rw [liveAt_8 t ((isLast_iff t).mpr h9)], after_8_last V c t h9]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runBody c (grid3.coords t) _ _ _ _ _ _ _ _ _ _ _ _ _ _ _ _ _ _ _ _ _ _ hfl (blockAt3 V c 0 t) (blockAt3 V c 1 t) (blockAt3 V c 2 t) (blockAt3 V c 3 t) (blockAt3 V c 4 t) (blockAt3 V c 5 t) (blockAt3 V c 6 t) (blockAt3 V c 7 t) _ _ _ _ _ _
        (if_neg hF).symm (if_neg hF).symm (if_pos ((isLast_iff t).mpr h9)).symm Set.univ _)
      iframe H0 H1 H2 H3 H4 H5 H6 H7 H8 HS0 HS1
      iintro ⟨H0, H1, H2, H3, H4, H5, H6, H7, H8, HS0, HS1⟩
      iframe
    · have hL : ¬isLast (grid3.coords t) := fun h => h9 ((isLast_iff t).mp h)
      rw [Dat.leavesExact_idle (poolDat V c) 8 t (idleAt_8 t hL) (noFlush_8 t hL)]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runBody c (grid3.coords t) _ _ _ _ _ _ _ _ _ _ _ _ _ _ _ _ _ _ _ _ _ _ hfl (blockAt3 V c 0 t) (blockAt3 V c 1 t) (blockAt3 V c 2 t) (blockAt3 V c 3 t) (blockAt3 V c 4 t) (blockAt3 V c 5 t) (blockAt3 V c 6 t) (blockAt3 V c 7 t) _ _ _ _ _ _
        (if_neg hF).symm (if_neg hF).symm (if_neg hL).symm Set.univ _)
      iframe H0 H1 H2 H3 H4 H5 H6 H7 H8 HS0 HS1
      iintro ⟨H0, H1, H2, H3, H4, H5, H6, H7, H8, HS0, HS1⟩
      iframe
      iexists _; iexact H8

theorem pool_obligation (c : Dev nD) : BodyObligation (poolDat (F := F) V c) (defs₀ (F := F)) Variants.none () Set.univ := fun t => by
  rw [bigSep_W3, bigSep_W3]
  exact sound_body V c t

theorem pool_hin (c : Dev nD) : Pipeline.ΦA spec3 c ⊢ (poolDat V c).Φ 0 := by
  rw [show (poolDat V c).Φ 0 = PhiS V c 0 (Nat.zero_le _) from rfl, PhiS_zero V c 0 _ rfl]
  try exact Idealize.SL.BI.Entails.refl _

theorem pool_hout (c : Dev nD) : (poolDat V c).Φ (Fin.last cfg3.N) ⊢ Pipeline.ΦA spec3 c := by
  rw [show (poolDat V c).Φ (Fin.last cfg3.N) = PhiS V c (Fin.last cfg3.N).val (Nat.le_of_lt_succ (Fin.last cfg3.N).isLt) from rfl,
    PhiS_pos V c _ _ (by rw [Fin.val_last]; have : cfg3.N = 10 := N_3; omega), PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Cert.Kernel.Hand

end
-- ==== Proof.HandKernel.Run.lean ====
import proofs.«426644_j22574348108036_2_alg».proof.Proof.HandKernel.Layer0
import proofs.«426644_j22574348108036_2_alg».proof.Proof.HandKernel.Layer1
import proofs.«426644_j22574348108036_2_alg».proof.Proof.HandKernel.Layer2
import proofs.«426644_j22574348108036_2_alg».proof.Proof.HandKernel.Pool
import proofs.«426644_j22574348108036_2_alg».proof.Proof.Gen.Kernel.Regions
import Idealize.ShloMosaic.Lib.Pipeline.RegionsLoop
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VOf (W : Dev nD → Valuation τ sig (Elt F)) : (c : Dev nD) → (b : Ref sig .tc) → Buf (Elt F) ((c : Thread nD τ).loc b) :=
  fun c b => W c b
-- The memory after a region: the region's arrays at what its points wrote back, every other buffer as before.
abbrev exitOf {cfg : Cfg sig Λ₀} (W : Dev nD → Valuation τ sig (Elt F))
    (D : (c : Dev nD) → Dat τ (Elt F) Unit ℕ (UR sig nD τ) ℕ cfg c) (c : Dev nD) : Valuation τ sig (Elt F) :=
  Pipeline.withArrays cfg.spec c (W c) fun w => (D c).arrAt w cfg.N
theorem exitOf_arr {cfg : Cfg sig Λ₀} (W : Dev nD → Valuation τ sig (Elt F)) (D : (c : Dev nD) → Dat τ (Elt F) Unit ℕ (UR sig nD τ) ℕ cfg c)
    (hinj : Function.Injective (Pipeline.arrRef cfg.spec)) (c : Dev nD) (w : Fin cfg.W) :
    exitOf W D c (Proc.devRef .tc (Pipeline.arrRef cfg.spec w)) = (D c).arrAt w cfg.N :=
  Pipeline.withArrays_arr cfg.spec hinj c _ _ w

abbrev W0 : Dev nD → Valuation τ sig (Elt F) := fun c b => m (c, b)
abbrev W1 : Dev nD → Valuation τ sig (Elt F) := fun c => StableHlo.after hostOps0 (W0 m c)
abbrev V1 := VOf (W1 m)
def W2 := exitOf (W1 m) (layerDat0 (V1 m))
abbrev V2 := VOf (W2 m)
abbrev W3 : Dev nD → Valuation τ sig (Elt F) := fun c => StableHlo.after hostOps1 (W2 m c)
abbrev V3 := VOf (W3 m)
def W4 := exitOf (W3 m) (layerDat1 (V3 m))
abbrev V4 := VOf (W4 m)
abbrev W5 : Dev nD → Valuation τ sig (Elt F) := fun c => StableHlo.after hostOps2 (W4 m c)
abbrev V5 := VOf (W5 m)
def W6 := exitOf (W5 m) (layerDat2 (V5 m))
abbrev V6 := VOf (W6 m)
abbrev W7 : Dev nD → Valuation τ sig (Elt F) := fun c => StableHlo.after hostOps3 (W6 m c)
abbrev V7 := VOf (W7 m)
def W8 := exitOf (W7 m) (poolDat (V7 m))
abbrev V8 := VOf (W8 m)

theorem hF0 (c : Dev nD) (w : Fin cfg0.W) : (layerDat0 (V1 m) c).arrAt w cfg0.N = V2 m c (Pipeline.arrRef spec0 w) :=
  (exitOf_arr (W1 m) (layerDat0 (V1 m)) launch0.win.arr_inj c w).symm
theorem hF1 (c : Dev nD) (w : Fin cfg1.W) : (layerDat1 (V3 m) c).arrAt w cfg1.N = V4 m c (Pipeline.arrRef spec1 w) :=
  (exitOf_arr (W3 m) (layerDat1 (V3 m)) launch1.win.arr_inj c w).symm
theorem hF2 (c : Dev nD) (w : Fin cfg2.W) : (layerDat2 (V5 m) c).arrAt w cfg2.N = V6 m c (Pipeline.arrRef spec2 w) :=
  (exitOf_arr (W5 m) (layerDat2 (V5 m)) launch2.win.arr_inj c w).symm

def pdats : (p : Fin 4) → (c : Dev nD) → Dat τ (Elt F) Unit ℕ (UR sig nD τ) ℕ (cfgs p) c
  | ⟨0, _⟩ => layerDat0 (V1 m)
  | ⟨1, _⟩ => layerDat1 (V3 m)
  | ⟨2, _⟩ => layerDat2 (V5 m)
  | ⟨3, _⟩ => poolDat (V7 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A region takes the memory W to the memory after it; the four regions differ only in their number.
def regOf (p : Fin 4) (lf : Pipeline.LaunchFacts (nD := nD) (τ := τ) cfgs p) (W : Dev nD → Valuation τ sig (Elt F))
    (hbody : ∀ c, Pipeline.BodyObligationLoose (pdats m p c) defs₀ 𝒱₀ () Set.univ)
    (hin : ∀ c, Pipeline.ΦA (cfgs p).spec c ⊢ (pdats m p c).Φ 0 := by exact fun _ => .rfl)
    (hout : ∀ c, (pdats m p c).Φ (Fin.last _) ⊢ Pipeline.ΦA (cfgs p).spec c := by exact fun _ => .rfl)
    (hA : ∀ c w, (pdats m p c).A w = W c (Proc.devRef .tc (Pipeline.arrRef (cfgs p).spec w)) := by exact fun _ _ => rfl)
    (hq : ∀ c w, (pdats m p c).q w = fullShare := by exact fun _ _ => rfl)
    (how : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p how
  pre := T W
  post := T (exitOf W (pdats m p))
  X c := iprop(∃ r, prngReg c r)
  Y c := iprop(∃ r, prngReg c r)
  Z c := Pipeline.unscopedRest (cfgs p).spec c (VOf W c)
  hentry c := by
    rw [Pipeline.ownSems0_none]
    have hsplit := Pipeline.arrays_of_unscopedBufs (p := p) (pcfgs (F := F)) adm (pdats m) lf.win lf.arr_whole c
      ((pdats m p c).share_full (hq c)) (VOf W c) (hA c)
    rw [Pipeline.unscopedBufs_held] at hsplit
    iintro ⟨⟨Hub, Hp, HO⟩, -, -⟩
    ihave H := hsplit $$ Hub
    icases H with ⟨Ha, Hrest⟩
    imodintro; iframe Ha Hp Hrest
    isplitr; · unfold Pipeline.prefHeld; rw [show (Finset.univ : Finset (Fin 0)) = ∅ from rfl, BI.bigSep_empty]; iempintro
    unfold Pipeline.Dat.owesAt Pipeline.owesWithin; rw [how c 0]
    icases HO with ⟨%W', HO⟩; iexists W'; iframe HO; ipureintro; exact fun _ _ => Or.inl (hrec c ▸ trivial)
  hin c := by
    refine .trans ?_ (hin c); unfold Pipeline.ΦA
    iintro ⟨Hp, -, Hr⟩; iframe Hr Hp
  hout c := by
    refine (hout c).trans ?_; rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m) ((pdats m p c).share_full (hq c))
      (VOf W c) (VOf (exitOf W (pdats m p)) c) ((pdats m p c).arrAt · (cfgs p).N)
      (fun w => (exitOf_arr W (pdats m p) lf.win.arr_inj c w).symm)
      (fun b hb => Pipeline.withArrays_of_ne (cfgs p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin; rw [how c]
    icases HO with ⟨%W', -, HO⟩; iexists W'; iexact HO

def reg0 := regOf m 0 launch0 (W1 m) fun c => (layer_obligation0 (V1 m) c).loose
def reg1 := regOf m 1 launch1 (W3 m) fun c => (layer_obligation1 (V3 m) c).loose
def reg2 := regOf m 2 launch2 (W5 m) fun c => (layer_obligation2 (V5 m) c).loose
def reg3 := regOf m 3 launch3 (W7 m) (fun c => (pool_obligation (V7 m) c).loose) (pool_hin (V7 m)) (pool_hout (V7 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

abbrev u₀ := Rounds.initOf (Pipeline.cells cfgs cellOf_inj) (Pipeline.launchToks cfgs cellOf_inj)

-- Every weakly fair run terminates without a fault, in the memory after the fourth region.
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rewrite [main_chain c, Pipeline.Seg.run_eq_chain]; exact .rfl)
    (show ([0, 1, 2, 3] : List (Fin 4)).Nodup by decide)
    (O₀ := 0) (hL := fun _ _ => rfl) (G := fun _ => iprop(emp))
    (u₀ := u₀)
    (hu₀ := by
      iintro Hu; imodintro; isplitl [Hu]
      · iapply (show (ownU u₀ : sProp 𝕄) ⊢ BI.own (emb₁ u₀) from .rfl); iexact Hu
      iapply (Entails.of_eq (BI.bigSep_emp_const _).symm); iempintro)
    (T₀ := T (W0 m)) (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun _ => sep_assoc.2⟩)
    (hinit := by
      refine Pipeline.initEach L lv fun c => ?_
      rw [Pipeline.unscopedBufs_held c (W0 m c)]
      iintro ⟨⟨Hh, -, HO, -, Hp, -⟩, -⟩
      imodintro
      isplitl [Hh]; · iexact Hh
      isplitl [Hp] <;> iexists _ <;> iassumption)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      iframe Hh HSI)
    (hQ := fun _ h => h)

end Cert.Kernel.Hand

end
-- ==== Proof.HandKernel.Ends.lean ====
import proofs.«426644_j22574348108036_2_alg».proof.Proof.HandKernel.Run

noncomputable section

namespace Cert.Kernel.Hand

open Idealize.ShloMosaic Idealize.ShloMosaic.TcCoe Idealize.SL.Sem
open Idealize.ShloMosaic.Pipeline (Dat Cfg)
open Cert.Kernel Cert.Kernel.Gen

variable {F : FTy → Type} [FloatOps F]

variable (m : (ℓ : Loc nD τ sig) → Buf (Elt F) ℓ) (ρ : Dev nD → PrngReg)

-- A region changes only its result array: every input array ends as it began.
theorem keep_of {cfg : Cfg sig Λ₀} {c : Dev nD} (D : Dat τ (Elt F) Unit ℕ (UR sig nD τ) ℕ cfg c) (V : Valuation τ sig (Elt F))
    (hinj : Function.Injective (Pipeline.arrRef cfg.spec)) (hA : ∀ w, D.A w = V (Proc.devRef .tc (Pipeline.arrRef cfg.spec w)))
    (o : Ref sig .tc) (ho : ∀ w, Pipeline.arrRef cfg.spec w ≠ o → (cfg.win w).isOut = false) (b : Ref sig .tc) (hb : b ≠ o) :
    Pipeline.withArrays cfg.spec c V (fun w => D.arrAt w cfg.N) (Proc.devRef .tc b) = V (Proc.devRef .tc b) := by
  by_cases h : ∃ w, Pipeline.arrRef cfg.spec w = b
  · obtain ⟨w, rfl⟩ := h
    exact (Pipeline.withArrays_arr cfg.spec hinj c _ _ w).trans ((D.arrAt_in w (ho w hb) _).trans (hA w))
  · exact Pipeline.withArrays_of_ne cfg.spec c _ _ b fun w e => h ⟨w, e⟩

theorem W1_keep (c : Dev nD) (b : Ref sig .tc) (hb : b ∉ hostOps0_W) : W1 m c (Proc.devRef .tc b) = W0 m c (Proc.devRef .tc b) :=
  StableHlo.after_of_writes_sub hostOps0 _ hostOps0_writes hb
theorem W2_keep (c : Dev nD) (b : Ref sig .tc) (hb : b ≠ main_v32) : W2 m c (Proc.devRef .tc b) = W1 m c (Proc.devRef .tc b) :=
  keep_of (layerDat0 (V1 m) c) (W1 m c) launch0.win.arr_inj (fun _ => rfl) main_v32 (by decide) b hb
theorem W3_keep (c : Dev nD) (b : Ref sig .tc) (hb : b ∉ hostOps1_W) : W3 m c (Proc.devRef .tc b) = W2 m c (Proc.devRef .tc b) :=
  StableHlo.after_of_writes_sub hostOps1 _ hostOps1_writes hb
theorem W4_keep (c : Dev nD) (b : Ref sig .tc) (hb : b ≠ main_v52) : W4 m c (Proc.devRef .tc b) = W3 m c (Proc.devRef .tc b) :=
  keep_of (layerDat1 (V3 m) c) (W3 m c) launch1.win.arr_inj (fun _ => rfl) main_v52 (by decide) b hb
theorem W5_keep (c : Dev nD) (b : Ref sig .tc) (hb : b ∉ hostOps2_W) : W5 m c (Proc.devRef .tc b) = W4 m c (Proc.devRef .tc b) :=
  StableHlo.after_of_writes_sub hostOps2 _ hostOps2_writes hb
theorem W6_keep (c : Dev nD) (b : Ref sig .tc) (hb : b ≠ main_v72) : W6 m c (Proc.devRef .tc b) = W5 m c (Proc.devRef .tc b) :=
  keep_of (layerDat2 (V5 m) c) (W5 m c) launch2.win.arr_inj (fun _ => rfl) main_v72 (by decide) b hb
theorem W7_keep (c : Dev nD) (b : Ref sig .tc) (hb : b ∉ hostOps3_W) : W7 m c (Proc.devRef .tc b) = W6 m c (Proc.devRef .tc b) :=
  StableHlo.after_of_writes_sub hostOps3 _ hostOps3_writes hb
theorem W8_keep (c : Dev nD) (b : Ref sig .tc) (hb : b ≠ main_v76) : W8 m c (Proc.devRef .tc b) = W7 m c (Proc.devRef .tc b) :=
  keep_of (poolDat (V7 m) c) (W7 m c) launch3.win.arr_inj (fun _ => rfl) main_v76 (by decide) b hb

theorem W8_untouched (c : Dev nD) (b : Ref sig .tc) (h0 : b ∉ hostOps0_W) (h1 : b ∉ hostOps1_W) (h2 : b ∉ hostOps2_W) (h3 : b ∉ hostOps3_W)
    (n0 : b ≠ main_v32) (n1 : b ≠ main_v52) (n2 : b ≠ main_v72) (n3 : b ≠ main_v76) :
    W8 m c (Proc.devRef .tc b) = m ((c.tc : Thread nD τ).loc b) :=
  (W8_keep m c b n3).trans <| (W7_keep m c b h3).trans <| (W6_keep m c b n2).trans <| (W5_keep m c b h2).trans <|
    (W4_keep m c b n1).trans <| (W3_keep m c b h1).trans <| (W2_keep m c b n0).trans <| (W1_keep m c b h0).trans rfl

theorem W8_result (c : Dev nD) : W8 m c (Proc.devRef .tc main_v76) = (poolDat (V7 m) c).arrAt 8 cfg3.N :=
  Pipeline.withArrays_arr spec3 launch3.win.arr_inj c (W7 m c) (fun w => (poolDat (V7 m) c).arrAt w cfg3.N) 8

theorem run_result : θ_run defs (onTc (τ := τ) (main (F := F))) ⟨m, fun _ => 0, ρ⟩ (fun r => ∀ c : Dev nD,
      r.2.mem ((c.tc : Thread nD τ).loc main_v76) = (poolDat (V7 m) c).arrAt 8 cfg3.N
      ∧ r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    have k (b : Ref sig .tc) : (¬ (Proc.devRef .tc b : DevRef τ sig).isScoped ∧ b ∉ hostOps0_W ∧ b ∉ hostOps1_W ∧ b ∉ hostOps2_W
        ∧ b ∉ hostOps3_W ∧ b ≠ main_v32 ∧ b ≠ main_v52 ∧ b ≠ main_v72 ∧ b ≠ main_v76) →
        r.2.mem ((c.tc : Thread nD τ).loc b) = m ((c.tc : Thread nD τ).loc b)
      | ⟨hs, h0, h1, h2, h3, n0, n1, n2, n3⟩ => (h c _ (mem_uc b hs)).trans (W8_untouched m c b h0 h1 h2 h3 n0 n1 n2 n3)
    ⟨(h c _ (mem_uc main_v76 (by decide))).trans (W8_result m c), k main_arg0 (by decide), k main_arg1 (by decide),
      k main_arg2 (by decide), k main_arg3 (by decide), k main_arg4 (by decide), k main_arg5 (by decide), k main_arg6 (by decide),
      k main_arg7 (by decide), k main_arg8 (by decide), k main_arg9 (by decide)⟩)
    (run_all m ρ)

theorem frame_hand : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => (h c).2) (run_result m ρ)

end Cert.Kernel.Hand

end
-- ==== Proof.HandKernelIdeal.Layer0.lean ====
import proofs.«426644_j22574348108036_2_alg».proof.Proof.Gen.KernelIdeal.Launch
import proofs.«426644_j22574348108036_2_alg».proof.Proof.Gen.KernelIdeal.Skeleton
import proofs.«426644_j22574348108036_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

private abbrev rowsRect : Rect S5000x128 := Rect.unit (s := S5000x128) ![0, 0] S5000x128.size inb_S5000x128_S5000x128_0_0

private abbrev degRect : Rect S5000x1 := Rect.unit (s := S5000x1) ![0, 0] S5000x1.size inb_S5000x1_S5000x1_0_0

private abbrev weightRect : Rect S128x128 := Rect.unit (s := S128x128) ![0, 0] S128x128.size inb_S128x128_S128x128_0_0

private abbrev biasRect : Rect S1x128 := Rect.unit (s := S1x128) ![0, 0] S1x128.size inb_S1x128_S1x128_0_0

/-- What the one whole-buffer store leaves in the result block: the layer's value on the six input blocks. -/
def layerOut0 (a : Vec F S5000x128 .f32) (d : Vec F S5000x1 .f32) (h : Vec F S5000x128 .f32) (wl : Vec F S128x128 .f32)
    (b : Vec F S1x128 .f32) (wr : Vec F S128x128 .f32) : Vec F S5000x128 .f32 :=
  View.canon [⟨rowsRect, k0_pay1 (View.ld a rowsRect) (View.ld d degRect) (View.ld h rowsRect) (View.ld wl weightRect)
    (View.ld wr weightRect) (View.ld b biasRect)⟩]

private theorem zeroOffsets : (![0, 0] : Fin 2 → Nat) = fun _ => 0 :=
  funext fun a => by match a with | ⟨0, _⟩ => rfl | ⟨1, _⟩ => rfl

theorem layerOut0_eq (a : Vec F S5000x128 .f32) (d : Vec F S5000x1 .f32) (h : Vec F S5000x128 .f32) (wl : Vec F S128x128 .f32)
    (b : Vec F S1x128 .f32) (wr : Vec F S128x128 .f32) : layerOut0 a d h wl b wr = k0_pay1 a d h wl wr b := by
  unfold layerOut0
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]

private theorem layerOut0_cover (p : Vec F S5000x128 .f32) (y : S5000x128.Idx) :
    ∃ pc ∈ ([⟨rowsRect, p⟩] : List (View.Piece (Elt F) S5000x128 .f32)), y ∈ pc.1.set :=
  View.cover_of_tiled [⟨rowsRect, p⟩] S5000x128.size (by rfl) y

/-- The body loads six whole blocks and stores the layer's value over the whole seventh. -/
private theorem layer_sound (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S5000x128 .f32) (harg7 : arg7.IsWhole)
    (a : Vec F S5000x128 .f32) (d : Vec F S5000x1 .f32) (h : Vec F S5000x128 .f32) (wl : Vec F S128x128 .f32)
    (b : Vec F S1x128 .f32) (wr : Vec F S128x128 .f32) (K : PUnit → sProp 𝕄) :
    iprop(owns (c : Thread nD τ) arg1 fullShare a ∗ owns (c : Thread nD τ) arg2 fullShare d ∗ owns (c : Thread nD τ) arg3 fullShare h
        ∗ owns (c : Thread nD τ) arg4 fullShare wl ∗ owns (c : Thread nD τ) arg5 fullShare b ∗ owns (c : Thread nD τ) arg6 fullShare wr
        ∗ (∃ o, owns (c : Thread nD τ) arg7 fullShare o)
        ∗ (iprop(owns (c : Thread nD τ) arg1 fullShare a ∗ owns (c : Thread nD τ) arg2 fullShare d ∗ owns (c : Thread nD τ) arg3 fullShare h
            ∗ owns (c : Thread nD τ) arg4 fullShare wl ∗ owns (c : Thread nD τ) arg5 fullShare b ∗ owns (c : Thread nD τ) arg6 fullShare wr
            ∗ owns (c : Thread nD τ) arg7 fullShare (layerOut0 a d h wl b wr)) -∗ K ⟨⟩))
      ⊢ wp frame (wpE (defs₀ (F := F)) Variants.none c none) E
          (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%o, %f7, -, H7⟩, Hk⟩
  subst hf1 hf2 hf3 hf4 hf5 hf6
  sl_exec
  sl_step
  iapply Hk
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  iexists _; isplitr; swap; iexact H7
  · ipureintro; exact View.read_writes_eq_canon _ _ _ (layerOut0_cover _)
  all_goals (ipureintro; rfl)

/-- Each input block is left as found; the result block holds the layer's value of the point's input blocks. -/
def layerDat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => layerOut0 (blockAt0 V c 0 t) (blockAt0 V c 1 t) (blockAt0 V c 2 t) (blockAt0 V c 3 t) (blockAt0 V c 4 t) (blockAt0 V c 5 t)
  Φ _ := Pipeline.ΦA spec0 c
  q _ := fullShare
  owed _ := 0

theorem layerDat0_A (c : Dev nD) (w : Fin cfg0.W) : (layerDat0 V c).A w = V c (Pipeline.arrRef spec0 w) := by
  dsimp only [layerDat0]

theorem layerDat0_after6 (c : Dev nD) (t : Fin cfg0.N) : (layerDat0 V c).after 6 t =
    layerOut0 (blockAt0 V c 0 t) (blockAt0 V c 1 t) (blockAt0 V c 2 t) (blockAt0 V c 3 t) (blockAt0 V c 4 t) (blockAt0 V c 5 t) := by
  dsimp only [layerDat0]

private theorem layerDat0_before0 (c : Dev nD) (t : Fin cfg0.N) (d) : (layerDat0 V c).before 0 t d = blockAt0 V c 0 t :=
  ((layerDat0 V c).before_in_eq_fetched 0 rfl (fun _ => rfl) (fun _ _ _ => rfl) (fun _ => rfl) t d).trans rfl
private theorem layerDat0_before1 (c : Dev nD) (t : Fin cfg0.N) (d) : (layerDat0 V c).before 1 t d = blockAt0 V c 1 t :=
  ((layerDat0 V c).before_in_eq_fetched 1 rfl (fun _ => rfl) (fun _ _ _ => rfl) (fun _ => rfl) t d).trans rfl
private theorem layerDat0_before2 (c : Dev nD) (t : Fin cfg0.N) (d) : (layerDat0 V c).before 2 t d = blockAt0 V c 2 t :=
  ((layerDat0 V c).before_in_eq_fetched 2 rfl (fun _ => rfl) (fun _ _ _ => rfl) (fun _ => rfl) t d).trans rfl
private theorem layerDat0_before3 (c : Dev nD) (t : Fin cfg0.N) (d) : (layerDat0 V c).before 3 t d = blockAt0 V c 3 t :=
  ((layerDat0 V c).before_in_eq_fetched 3 rfl (fun _ => rfl) (fun _ _ _ => rfl) (fun _ => rfl) t d).trans rfl
private theorem layerDat0_before4 (c : Dev nD) (t : Fin cfg0.N) (d) : (layerDat0 V c).before 4 t d = blockAt0 V c 4 t :=
  ((layerDat0 V c).before_in_eq_fetched 4 rfl (fun _ => rfl) (fun _ _ _ => rfl) (fun _ => rfl) t d).trans rfl
private theorem layerDat0_before5 (c : Dev nD) (t : Fin cfg0.N) (d) : (layerDat0 V c).before 5 t d = blockAt0 V c 5 t :=
  ((layerDat0 V c).before_in_eq_fetched 5 rfl (fun _ => rfl) (fun _ _ _ => rfl) (fun _ => rfl) t d).trans rfl

private theorem layer_body (c : Dev nD) (t : Fin cfg0.N) :
    iprop((layerDat0 V c).Φ t.castSucc ∗ (layerDat0 V c).owesAt () t.castSucc
    ∗ (∃ d, owns (c : Thread nD τ) (st0_0 t) fullShare ((layerDat0 V c).before 0 t d))
    ∗ (∃ d, owns (c : Thread nD τ) (st0_1 t) fullShare ((layerDat0 V c).before 1 t d))
    ∗ (∃ d, owns (c : Thread nD τ) (st0_2 t) fullShare ((layerDat0 V c).before 2 t d))
    ∗ (∃ d, owns (c : Thread nD τ) (st0_3 t) fullShare ((layerDat0 V c).before 3 t d))
    ∗ (∃ d, owns (c : Thread nD τ) (st0_4 t) fullShare ((layerDat0 V c).before 4 t d))
    ∗ (∃ d, owns (c : Thread nD τ) (st0_5 t) fullShare ((layerDat0 V c).before 5 t d))
    ∗ (∃ d, owns (c : Thread nD τ) (st0_6 t) fullShare ((layerDat0 V c).before 6 t d)))
      ⊢ wp frame (wpE (defs₀ (F := F)) Variants.none c none) Set.univ (bodyAt0 t) (fun _ =>
        iprop((layerDat0 V c).Φ t.succ ∗ (layerDat0 V c).owesAt () t.succ
        ∗ owns (c : Thread nD τ) (st0_0 t) fullShare ((layerDat0 V c).after 0 t)
        ∗ owns (c : Thread nD τ) (st0_1 t) fullShare ((layerDat0 V c).after 1 t)
        ∗ owns (c : Thread nD τ) (st0_2 t) fullShare ((layerDat0 V c).after 2 t)
        ∗ owns (c : Thread nD τ) (st0_3 t) fullShare ((layerDat0 V c).after 3 t)
        ∗ owns (c : Thread nD τ) (st0_4 t) fullShare ((layerDat0 V c).after 4 t)
        ∗ owns (c : Thread nD τ) (st0_5 t) fullShare ((layerDat0 V c).after 5 t)
        ∗ owns (c : Thread nD τ) (st0_6 t) fullShare ((layerDat0 V c).after 6 t))) := by
  unfold bodyAt0
  simp only [layerDat0_before0, layerDat0_before1, layerDat0_before2, layerDat0_before3, layerDat0_before4, layerDat0_before5]
  rw [show (layerDat0 V c).Φ t.succ = (layerDat0 V c).Φ t.castSucc from rfl,
    show (layerDat0 V c).owesAt () t.succ = (layerDat0 V c).owesAt () t.castSucc from rfl]
  dsimp only [layerDat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer_sound c Set.univ _ _ _ _ _ _ _ _ _ _ _ _ _ _ _ (blockAt0 V c 0 t) (blockAt0 V c 1 t) (blockAt0 V c 2 t)
    (blockAt0 V c 3 t) (blockAt0 V c 4 t) (blockAt0 V c 5 t) _)
  iframe H0 H1 H2 H3 H4 H5
  isplitl [H6]; · iexists _; iexact H6
  iintro ⟨H0, H1, H2, H3, H4, H5, H6⟩
  iframe

theorem layer_obligation0 (c : Dev nD) : BodyObligation (layerDat0 (F := F) V c) (defs₀ (F := F)) Variants.none () Set.univ := fun t => by
  rw [bigSep_W0, bigSep_W0]
  exact layer_body V c t

end Cert.KernelIdeal.Hand

end
-- ==== Proof.HandKernelIdeal.Layer1.lean ====
import proofs.«426644_j22574348108036_2_alg».proof.Proof.Gen.KernelIdeal.Launch
import proofs.«426644_j22574348108036_2_alg».proof.Proof.Gen.KernelIdeal.Skeleton
import proofs.«426644_j22574348108036_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

private abbrev rowsRect : Rect S5000x128 := Rect.unit (s := S5000x128) ![0, 0] S5000x128.size inb_S5000x128_S5000x128_0_0

private abbrev degRect : Rect S5000x1 := Rect.unit (s := S5000x1) ![0, 0] S5000x1.size inb_S5000x1_S5000x1_0_0

private abbrev weightRect : Rect S128x128 := Rect.unit (s := S128x128) ![0, 0] S128x128.size inb_S128x128_S128x128_0_0

private abbrev biasRect : Rect S1x128 := Rect.unit (s := S1x128) ![0, 0] S1x128.size inb_S1x128_S1x128_0_0

/-- What the one whole-buffer store leaves in the result block: the layer's value on the six input blocks. -/
def layerOut1 (a : Vec F S5000x128 .f32) (d : Vec F S5000x1 .f32) (h : Vec F S5000x128 .f32) (wl : Vec F S128x128 .f32)
    (b : Vec F S1x128 .f32) (wr : Vec F S128x128 .f32) : Vec F S5000x128 .f32 :=
  View.canon [⟨rowsRect, k1_pay1 (View.ld a rowsRect) (View.ld d degRect) (View.ld h rowsRect) (View.ld wl weightRect)
    (View.ld wr weightRect) (View.ld b biasRect)⟩]

private theorem zeroOffsets : (![0, 0] : Fin 2 → Nat) = fun _ => 0 :=
  funext fun a => by match a with | ⟨0, _⟩ => rfl | ⟨1, _⟩ => rfl

theorem layerOut1_eq (a : Vec F S5000x128 .f32) (d : Vec F S5000x1 .f32) (h : Vec F S5000x128 .f32) (wl : Vec F S128x128 .f32)
    (b : Vec F S1x128 .f32) (wr : Vec F S128x128 .f32) : layerOut1 a d h wl b wr = k1_pay1 a d h wl wr b := by
  unfold layerOut1
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]

private theorem layerOut1_cover (p : Vec F S5000x128 .f32) (y : S5000x128.Idx) :
    ∃ pc ∈ ([⟨rowsRect, p⟩] : List (View.Piece (Elt F) S5000x128 .f32)), y ∈ pc.1.set :=
  View.cover_of_tiled [⟨rowsRect, p⟩] S5000x128.size (by rfl) y

/-- The body loads six whole blocks and stores the layer's value over the whole seventh. -/
private theorem layer_sound (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S5000x128 .f32) (harg7 : arg7.IsWhole)
    (a : Vec F S5000x128 .f32) (d : Vec F S5000x1 .f32) (h : Vec F S5000x128 .f32) (wl : Vec F S128x128 .f32)
    (b : Vec F S1x128 .f32) (wr : Vec F S128x128 .f32) (K : PUnit → sProp 𝕄) :
    iprop(owns (c : Thread nD τ) arg1 fullShare a ∗ owns (c : Thread nD τ) arg2 fullShare d ∗ owns (c : Thread nD τ) arg3 fullShare h
        ∗ owns (c : Thread nD τ) arg4 fullShare wl ∗ owns (c : Thread nD τ) arg5 fullShare b ∗ owns (c : Thread nD τ) arg6 fullShare wr
        ∗ (∃ o, owns (c : Thread nD τ) arg7 fullShare o)
        ∗ (iprop(owns (c : Thread nD τ) arg1 fullShare a ∗ owns (c : Thread nD τ) arg2 fullShare d ∗ owns (c : Thread nD τ) arg3 fullShare h
            ∗ owns (c : Thread nD τ) arg4 fullShare wl ∗ owns (c : Thread nD τ) arg5 fullShare b ∗ owns (c : Thread nD τ) arg6 fullShare wr
            ∗ owns (c : Thread nD τ) arg7 fullShare (layerOut1 a d h wl b wr)) -∗ K ⟨⟩))
      ⊢ wp frame (wpE (defs₀ (F := F)) Variants.none c none) E
          (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%o, %f7, -, H7⟩, Hk⟩
  subst hf1 hf2 hf3 hf4 hf5 hf6
  sl_exec
  sl_step
  iapply Hk
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  iexists _; isplitr; swap; iexact H7
  · ipureintro; exact View.read_writes_eq_canon _ _ _ (layerOut1_cover _)
  all_goals (ipureintro; rfl)

/-- Each input block is left as found; the result block holds the layer's value of the point's input blocks. -/
def layerDat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => blockAt1 V c 5 t
    | ⟨6, _⟩ => layerOut1 (blockAt1 V c 0 t) (blockAt1 V c 1 t) (blockAt1 V c 2 t) (blockAt1 V c 3 t) (blockAt1 V c 4 t) (blockAt1 V c 5 t)
  Φ _ := Pipeline.ΦA spec1 c
  q _ := fullShare
  owed _ := 0

theorem layerDat1_A (c : Dev nD) (w : Fin cfg1.W) : (layerDat1 V c).A w = V c (Pipeline.arrRef spec1 w) := by
  dsimp only [layerDat1]

theorem layerDat1_after6 (c : Dev nD) (t : Fin cfg1.N) : (layerDat1 V c).after 6 t =
    layerOut1 (blockAt1 V c 0 t) (blockAt1 V c 1 t) (blockAt1 V c 2 t) (blockAt1 V c 3 t) (blockAt1 V c 4 t) (blockAt1 V c 5 t) := by
  dsimp only [layerDat1]

private theorem layerDat1_before0 (c : Dev nD) (t : Fin cfg1.N) (d) : (layerDat1 V c).before 0 t d = blockAt1 V c 0 t :=
  ((layerDat1 V c).before_in_eq_fetched 0 rfl (fun _ => rfl) (fun _ _ _ => rfl) (fun _ => rfl) t d).trans rfl
private theorem layerDat1_before1 (c : Dev nD) (t : Fin cfg1.N) (d) : (layerDat1 V c).before 1 t d = blockAt1 V c 1 t :=
  ((layerDat1 V c).before_in_eq_fetched 1 rfl (fun _ => rfl) (fun _ _ _ => rfl) (fun _ => rfl) t d).trans rfl
private theorem layerDat1_before2 (c : Dev nD) (t : Fin cfg1.N) (d) : (layerDat1 V c).before 2 t d = blockAt1 V c 2 t :=
  ((layerDat1 V c).before_in_eq_fetched 2 rfl (fun _ => rfl) (fun _ _ _ => rfl) (fun _ => rfl) t d).trans rfl
private theorem layerDat1_before3 (c : Dev nD) (t : Fin cfg1.N) (d) : (layerDat1 V c).before 3 t d = blockAt1 V c 3 t :=
  ((layerDat1 V c).before_in_eq_fetched 3 rfl (fun _ => rfl) (fun _ _ _ => rfl) (fun _ => rfl) t d).trans rfl
private theorem layerDat1_before4 (c : Dev nD) (t : Fin cfg1.N) (d) : (layerDat1 V c).before 4 t d = blockAt1 V c 4 t :=
  ((layerDat1 V c).before_in_eq_fetched 4 rfl (fun _ => rfl) (fun _ _ _ => rfl) (fun _ => rfl) t d).trans rfl
private theorem layerDat1_before5 (c : Dev nD) (t : Fin cfg1.N) (d) : (layerDat1 V c).before 5 t d = blockAt1 V c 5 t :=
  ((layerDat1 V c).before_in_eq_fetched 5 rfl (fun _ => rfl) (fun _ _ _ => rfl) (fun _ => rfl) t d).trans rfl

private theorem layer_body (c : Dev nD) (t : Fin cfg1.N) :
    iprop((layerDat1 V c).Φ t.castSucc ∗ (layerDat1 V c).owesAt () t.castSucc
    ∗ (∃ d, owns (c : Thread nD τ) (st1_0 t) fullShare ((layerDat1 V c).before 0 t d))
    ∗ (∃ d, owns (c : Thread nD τ) (st1_1 t) fullShare ((layerDat1 V c).before 1 t d))
    ∗ (∃ d, owns (c : Thread nD τ) (st1_2 t) fullShare ((layerDat1 V c).before 2 t d))
    ∗ (∃ d, owns (c : Thread nD τ) (st1_3 t) fullShare ((layerDat1 V c).before 3 t d))
    ∗ (∃ d, owns (c : Thread nD τ) (st1_4 t) fullShare ((layerDat1 V c).before 4 t d))
    ∗ (∃ d, owns (c : Thread nD τ) (st1_5 t) fullShare ((layerDat1 V c).before 5 t d))
    ∗ (∃ d, owns (c : Thread nD τ) (st1_6 t) fullShare ((layerDat1 V c).before 6 t d)))
      ⊢ wp frame (wpE (defs₀ (F := F)) Variants.none c none) Set.univ (bodyAt1 t) (fun _ =>
        iprop((layerDat1 V c).Φ t.succ ∗ (layerDat1 V c).owesAt () t.succ
        ∗ owns (c : Thread nD τ) (st1_0 t) fullShare ((layerDat1 V c).after 0 t)
        ∗ owns (c : Thread nD τ) (st1_1 t) fullShare ((layerDat1 V c).after 1 t)
        ∗ owns (c : Thread nD τ) (st1_2 t) fullShare ((layerDat1 V c).after 2 t)
        ∗ owns (c : Thread nD τ) (st1_3 t) fullShare ((layerDat1 V c).after 3 t)
        ∗ owns (c : Thread nD τ) (st1_4 t) fullShare ((layerDat1 V c).after 4 t)
        ∗ owns (c : Thread nD τ) (st1_5 t) fullShare ((layerDat1 V c).after 5 t)
        ∗ owns (c : Thread nD τ) (st1_6 t) fullShare ((layerDat1 V c).after 6 t))) := by
  unfold bodyAt1
  simp only [layerDat1_before0, layerDat1_before1, layerDat1_before2, layerDat1_before3, layerDat1_before4, layerDat1_before5]
  rw [show (layerDat1 V c).Φ t.succ = (layerDat1 V c).Φ t.castSucc from rfl,
    show (layerDat1 V c).owesAt () t.succ = (layerDat1 V c).owesAt () t.castSucc from rfl]
  dsimp only [layerDat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer_sound c Set.univ _ _ _ _ _ _ _ _ _ _ _ _ _ _ _ (blockAt1 V c 0 t) (blockAt1 V c 1 t) (blockAt1 V c 2 t)
    (blockAt1 V c 3 t) (blockAt1 V c 4 t) (blockAt1 V c 5 t) _)
  iframe H0 H1 H2 H3 H4 H5
  isplitl [H6]; · iexists _; iexact H6
  iintro ⟨H0, H1, H2, H3, H4, H5, H6⟩
  iframe

theorem layer_obligation1 (c : Dev nD) : BodyObligation (layerDat1 (F := F) V c) (defs₀ (F := F)) Variants.none () Set.univ := fun t => by
  rw [bigSep_W1, bigSep_W1]
  exact layer_body V c t

end Cert.KernelIdeal.Hand

end
-- ==== Proof.HandKernelIdeal.Layer2.lean ====
import proofs.«426644_j22574348108036_2_alg».proof.Proof.Gen.KernelIdeal.Launch
import proofs.«426644_j22574348108036_2_alg».proof.Proof.Gen.KernelIdeal.Skeleton
import proofs.«426644_j22574348108036_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

private abbrev rowsRect : Rect S5000x128 := Rect.unit (s := S5000x128) ![0, 0] S5000x128.size inb_S5000x128_S5000x128_0_0

private abbrev degRect : Rect S5000x1 := Rect.unit (s := S5000x1) ![0, 0] S5000x1.size inb_S5000x1_S5000x1_0_0

private abbrev weightRect : Rect S128x128 := Rect.unit (s := S128x128) ![0, 0] S128x128.size inb_S128x128_S128x128_0_0

private abbrev biasRect : Rect S1x128 := Rect.unit (s := S1x128) ![0, 0] S1x128.size inb_S1x128_S1x128_0_0

/-- What the one whole-buffer store leaves in the result block: the layer's value on the six input blocks. -/
def layerOut2 (a : Vec F S5000x128 .f32) (d : Vec F S5000x1 .f32) (h : Vec F S5000x128 .f32) (wl : Vec F S128x128 .f32)
    (b : Vec F S1x128 .f32) (wr : Vec F S128x128 .f32) : Vec F S5000x128 .f32 :=
  View.canon [⟨rowsRect, k2_pay1 (View.ld a rowsRect) (View.ld d degRect) (View.ld h rowsRect) (View.ld wl weightRect)
    (View.ld wr weightRect) (View.ld b biasRect)⟩]

private theorem zeroOffsets : (![0, 0] : Fin 2 → Nat) = fun _ => 0 :=
  funext fun a => by match a with | ⟨0, _⟩ => rfl | ⟨1, _⟩ => rfl

theorem layerOut2_eq (a : Vec F S5000x128 .f32) (d : Vec F S5000x1 .f32) (h : Vec F S5000x128 .f32) (wl : Vec F S128x128 .f32)
    (b : Vec F S1x128 .f32) (wr : Vec F S128x128 .f32) : layerOut2 a d h wl b wr = k2_pay1 a d h wl wr b := by
  unfold layerOut2
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]

private theorem layerOut2_cover (p : Vec F S5000x128 .f32) (y : S5000x128.Idx) :
    ∃ pc ∈ ([⟨rowsRect, p⟩] : List (View.Piece (Elt F) S5000x128 .f32)), y ∈ pc.1.set :=
  View.cover_of_tiled [⟨rowsRect, p⟩] S5000x128.size (by rfl) y

/-- The body loads six whole blocks and stores the layer's value over the whole seventh. -/
private theorem layer_sound (c : Dev nD) (E : Set ℕ) (i : grid2.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S5000x128 .f32) (harg7 : arg7.IsWhole)
    (a : Vec F S5000x128 .f32) (d : Vec F S5000x1 .f32) (h : Vec F S5000x128 .f32) (wl : Vec F S128x128 .f32)
    (b : Vec F S1x128 .f32) (wr : Vec F S128x128 .f32) (K : PUnit → sProp 𝕄) :
    iprop(owns (c : Thread nD τ) arg1 fullShare a ∗ owns (c : Thread nD τ) arg2 fullShare d ∗ owns (c : Thread nD τ) arg3 fullShare h
        ∗ owns (c : Thread nD τ) arg4 fullShare wl ∗ owns (c : Thread nD τ) arg5 fullShare b ∗ owns (c : Thread nD τ) arg6 fullShare wr
        ∗ (∃ o, owns (c : Thread nD τ) arg7 fullShare o)
        ∗ (iprop(owns (c : Thread nD τ) arg1 fullShare a ∗ owns (c : Thread nD τ) arg2 fullShare d ∗ owns (c : Thread nD τ) arg3 fullShare h
            ∗ owns (c : Thread nD τ) arg4 fullShare wl ∗ owns (c : Thread nD τ) arg5 fullShare b ∗ owns (c : Thread nD τ) arg6 fullShare wr
            ∗ owns (c : Thread nD τ) arg7 fullShare (layerOut2 a d h wl b wr)) -∗ K ⟨⟩))
      ⊢ wp frame (wpE (defs₀ (F := F)) Variants.none c none) E
          (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%o, %f7, -, H7⟩, Hk⟩
  subst hf1 hf2 hf3 hf4 hf5 hf6
  sl_exec
  sl_step
  iapply Hk
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  iexists _; isplitr; swap; iexact H7
  · ipureintro; exact View.read_writes_eq_canon _ _ _ (layerOut2_cover _)
  all_goals (ipureintro; rfl)

/-- Each input block is left as found; the result block holds the layer's value of the point's input blocks. -/
def layerDat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => blockAt2 V c 5 t
    | ⟨6, _⟩ => layerOut2 (blockAt2 V c 0 t) (blockAt2 V c 1 t) (blockAt2 V c 2 t) (blockAt2 V c 3 t) (blockAt2 V c 4 t) (blockAt2 V c 5 t)
  Φ _ := Pipeline.ΦA spec2 c
  q _ := fullShare
  owed _ := 0

theorem layerDat2_A (c : Dev nD) (w : Fin cfg2.W) : (layerDat2 V c).A w = V c (Pipeline.arrRef spec2 w) := by
  dsimp only [layerDat2]

theorem layerDat2_after6 (c : Dev nD) (t : Fin cfg2.N) : (layerDat2 V c).after 6 t =
    layerOut2 (blockAt2 V c 0 t) (blockAt2 V c 1 t) (blockAt2 V c 2 t) (blockAt2 V c 3 t) (blockAt2 V c 4 t) (blockAt2 V c 5 t) := by
  dsimp only [layerDat2]

private theorem layerDat2_before0 (c : Dev nD) (t : Fin cfg2.N) (d) : (layerDat2 V c).before 0 t d = blockAt2 V c 0 t :=
  ((layerDat2 V c).before_in_eq_fetched 0 rfl (fun _ => rfl) (fun _ _ _ => rfl) (fun _ => rfl) t d).trans rfl
private theorem layerDat2_before1 (c : Dev nD) (t : Fin cfg2.N) (d) : (layerDat2 V c).before 1 t d = blockAt2 V c 1 t :=
  ((layerDat2 V c).before_in_eq_fetched 1 rfl (fun _ => rfl) (fun _ _ _ => rfl) (fun _ => rfl) t d).trans rfl
private theorem layerDat2_before2 (c : Dev nD) (t : Fin cfg2.N) (d) : (layerDat2 V c).before 2 t d = blockAt2 V c 2 t :=
  ((layerDat2 V c).before_in_eq_fetched 2 rfl (fun _ => rfl) (fun _ _ _ => rfl) (fun _ => rfl) t d).trans rfl
private theorem layerDat2_before3 (c : Dev nD) (t : Fin cfg2.N) (d) : (layerDat2 V c).before 3 t d = blockAt2 V c 3 t :=
  ((layerDat2 V c).before_in_eq_fetched 3 rfl (fun _ => rfl) (fun _ _ _ => rfl) (fun _ => rfl) t d).trans rfl
private theorem layerDat2_before4 (c : Dev nD) (t : Fin cfg2.N) (d) : (layerDat2 V c).before 4 t d = blockAt2 V c 4 t :=
  ((layerDat2 V c).before_in_eq_fetched 4 rfl (fun _ => rfl) (fun _ _ _ => rfl) (fun _ => rfl) t d).trans rfl
private theorem layerDat2_before5 (c : Dev nD) (t : Fin cfg2.N) (d) : (layerDat2 V c).before 5 t d = blockAt2 V c 5 t :=
  ((layerDat2 V c).before_in_eq_fetched 5 rfl (fun _ => rfl) (fun _ _ _ => rfl) (fun _ => rfl) t d).trans rfl

private theorem layer_body (c : Dev nD) (t : Fin cfg2.N) :
    iprop((layerDat2 V c).Φ t.castSucc ∗ (layerDat2 V c).owesAt () t.castSucc
    ∗ (∃ d, owns (c : Thread nD τ) (st2_0 t) fullShare ((layerDat2 V c).before 0 t d))
    ∗ (∃ d, owns (c : Thread nD τ) (st2_1 t) fullShare ((layerDat2 V c).before 1 t d))
    ∗ (∃ d, owns (c : Thread nD τ) (st2_2 t) fullShare ((layerDat2 V c).before 2 t d))
    ∗ (∃ d, owns (c : Thread nD τ) (st2_3 t) fullShare ((layerDat2 V c).before 3 t d))
    ∗ (∃ d, owns (c : Thread nD τ) (st2_4 t) fullShare ((layerDat2 V c).before 4 t d))
    ∗ (∃ d, owns (c : Thread nD τ) (st2_5 t) fullShare ((layerDat2 V c).before 5 t d))
    ∗ (∃ d, owns (c : Thread nD τ) (st2_6 t) fullShare ((layerDat2 V c).before 6 t d)))
      ⊢ wp frame (wpE (defs₀ (F := F)) Variants.none c none) Set.univ (bodyAt2 t) (fun _ =>
        iprop((layerDat2 V c).Φ t.succ ∗ (layerDat2 V c).owesAt () t.succ
        ∗ owns (c : Thread nD τ) (st2_0 t) fullShare ((layerDat2 V c).after 0 t)
        ∗ owns (c : Thread nD τ) (st2_1 t) fullShare ((layerDat2 V c).after 1 t)
        ∗ owns (c : Thread nD τ) (st2_2 t) fullShare ((layerDat2 V c).after 2 t)
        ∗ owns (c : Thread nD τ) (st2_3 t) fullShare ((layerDat2 V c).after 3 t)
        ∗ owns (c : Thread nD τ) (st2_4 t) fullShare ((layerDat2 V c).after 4 t)
        ∗ owns (c : Thread nD τ) (st2_5 t) fullShare ((layerDat2 V c).after 5 t)
        ∗ owns (c : Thread nD τ) (st2_6 t) fullShare ((layerDat2 V c).after 6 t))) := by
  unfold bodyAt2
  simp only [layerDat2_before0, layerDat2_before1, layerDat2_before2, layerDat2_before3, layerDat2_before4, layerDat2_before5]
  rw [show (layerDat2 V c).Φ t.succ = (layerDat2 V c).Φ t.castSucc from rfl,
    show (layerDat2 V c).owesAt () t.succ = (layerDat2 V c).owesAt () t.castSucc from rfl]
  dsimp only [layerDat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (layer_sound c Set.univ _ _ _ _ _ _ _ _ _ _ _ _ _ _ _ (blockAt2 V c 0 t) (blockAt2 V c 1 t) (blockAt2 V c 2 t)
    (blockAt2 V c 3 t) (blockAt2 V c 4 t) (blockAt2 V c 5 t) _)
  iframe H0 H1 H2 H3 H4 H5
  isplitl [H6]; · iexists _; iexact H6
  iintro ⟨H0, H1, H2, H3, H4, H5, H6⟩
  iframe

theorem layer_obligation2 (c : Dev nD) : BodyObligation (layerDat2 (F := F) V c) (defs₀ (F := F)) Variants.none () Set.univ := fun t => by
  rw [bigSep_W2, bigSep_W2]
  exact layer_body V c t

end Cert.KernelIdeal.Hand

end
-- ==== Proof.HandKernelIdeal.PoolRuns.lean ====
import proofs.«426644_j22574348108036_2_alg».proof.Proof.Gen.KernelIdeal.Launch
import proofs.«426644_j22574348108036_2_alg».proof.Proof.Gen.KernelIdeal.Skeleton
import proofs.«426644_j22574348108036_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev isFirst (i : grid3.Coords) : Prop := (Scalar.cmpi .ne (Scalar.extui (Scalar.cmpi .eq (BitVec.ofNat 32 (i 0).val) 0#32)) 0#32) = 1#1
theorem isFirst_iff : ∀ t : Fin cfg3.N, isFirst (grid3.coords t) ↔ t.val % 10 = 0 :=
  (by decide +kernel : ∀ t : Fin grid3.N, isFirst (grid3.coords t) ↔ t.val % 10 = 0)

abbrev isLast (i : grid3.Coords) : Prop := k3_cond2 i = 1#1
theorem isLast_iff : ∀ t : Fin cfg3.N, isLast (grid3.coords t) ↔ t.val % 10 = 9 :=
  (by decide +kernel : ∀ t : Fin grid3.N, isLast (grid3.coords t) ↔ t.val % 10 = 9)

theorem off00 : (![0, 0] : Fin 2 → ℕ) = fun _ => 0 := by funext a; fin_cases a <;> rfl

theorem readAt_unit {S : Shape} {e : EltTy} {off : Fin S.rank → ℕ} (hoff : off = fun _ => 0)
    (inb : ∀ a, off a + S.size a ≤ S.size a) (m : Memref sig .tc .vmem S e) (f : m.view.ty.Contents (Elt F)) :
    m.view.readAt (Elt F) (Rect.unit off S.size inb).toLoadRect f = m.view.read (Elt F) f := by
  rw [View.readAt_eq_ld, View.ld_unit_zero hoff]

theorem read_writes_unit {S : Shape} {e : EltTy} {off : Fin S.rank → ℕ} (hoff : off = fun _ => 0)
    (inb : ∀ a, off a + S.size a ≤ S.size a) (m : Memref sig .tc .vmem S e) (f : m.view.ty.Contents (Elt F)) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero hoff inb y⟩), View.canon_cons_unit_zero hoff]

/-- One step of the segmented sum: both accumulators take this block's contribution, over zero at the first point; the head is stored at the last point only. -/
theorem runBody (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x1 .i32) (harg4 : arg4.IsWhole) (arg5 : Memref sig .tc .vmem S384x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x384 .f32) (harg10 : arg10.IsWhole) (arg11 : Memref sig .tc .vmem S512x1 .f32) (harg11 : arg11.IsWhole)
    (hfl : isFirst i → ¬isLast i)
    (x0 x1 x2 : Vec F S5000x128 .f32) (ids : Vec F S5000x1 .i32) (w1 : Vec F S384x128 .f32) (b1 : Vec F S1x128 .f32)
    (w2 : Vec F S128x10 .f32) (b2 : Vec F S1x10 .f32) (xo : Vec F S512x10 .f32)
    (s0 : Vec F S512x384 .f32) (s1 : Vec F S512x1 .f32) (z0 : Vec F S512x384 .f32) (z1 : Vec F S512x1 .f32) (o : Vec F S512x10 .f32)
    (hz0 : z0 = if isFirst i then k3_pay2 else s0) (hz1 : z1 = if isFirst i then k3_pay3 else s1)
    (ho : o = if isLast i then k3_pay1 (k3_pay5 ids x0 x1 x2 z0) (k3_pay6 ids z1) w1 b1 w2 b2 else xo)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare ids ∗ owns (c : Thread nD τ) arg5 fullShare w1 ∗ owns (c : Thread nD τ) arg6 fullShare b1 ∗ owns (c : Thread nD τ) arg7 fullShare w2 ∗ owns (c : Thread nD τ) arg8 fullShare b2 ∗ owns (c : Thread nD τ) arg9 fullShare xo ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare ids ∗ owns (c : Thread nD τ) arg5 fullShare w1 ∗ owns (c : Thread nD τ) arg6 fullShare b1 ∗ owns (c : Thread nD τ) arg7 fullShare w2 ∗ owns (c : Thread nD τ) arg8 fullShare b2 ∗ owns (c : Thread nD τ) arg9 fullShare o ∗ owns (c : Thread nD τ) arg10 fullShare (k3_pay5 ids x0 x1 x2 z0) ∗ owns (c : Thread nD τ) arg11 fullShare (k3_pay6 ids z1)) -∗ K ⟨⟩))
      ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11) K := by
  subst ho hz0 hz1
  by_cases hf : isFirst i <;> by_cases hl : isLast i
  · exact absurd hl (hfl hf)
  all_goals
    first | rw [if_pos hf, if_pos hf] | rw [if_neg hf, if_neg hf]
    first | rw [if_pos hl] | rw [if_neg hl]
    simp only [cc3__pool_mlp_kernel_eq_skeleton]; unfold cc3__pool_mlp_kernel_skel
    simp only [k3_part1_eq_skeleton]; unfold k3_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    subst hf1 hf2 hf3 hf4 hf5 hf6 hf7 hf8 hf9 hf10 hf11
    sl_exec (disch := first | exact hf | exact hl)
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    isplitl [H8]; iexists _; isplitr; swap; iexact H8; rotate_left
    isplitl [H9]; iexists _; isplitr; swap; iexact H9; rotate_left
    isplitl [H10]; iexists _; isplitr; swap; iexact H10; rotate_left
    iexists _; isplitr; swap; iexact H11
    all_goals ipureintro
    all_goals first | (sl_unfold_run_names; simp only [read_writes_unit (S := S512x384) off00,
      read_writes_unit (S := S512x1) off00, read_writes_unit (S := S512x10) off00, readAt_unit (S := S5000x1) off00,
      readAt_unit (S := S5000x128) off00, readAt_unit (S := S512x384) off00, readAt_unit (S := S512x1) off00,
      readAt_unit (S := S384x128) off00, readAt_unit (S := S1x128) off00, readAt_unit (S := S128x10) off00,
      readAt_unit (S := S1x10) off00, readAt_unit (S := S512x10) off00,
      View.readCov_unit_zero (S := S512x384) _ off00, View.readCov_unit_zero (S := S512x1) _ off00]; done) | rfl

end Cert.KernelIdeal.Hand

end
-- ==== Proof.HandKernelIdeal.Pool.lean ====
import proofs.«426644_j22574348108036_2_alg».proof.Proof.HandKernelIdeal.PoolRuns

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pooled sums and the counts after point `n`: this block's contribution over zero at the first point, over the point before afterwards. -/
def poolAcc (c : Dev nD) : (n : ℕ) → n < cfg3.N → Vec F S512x384 .f32 × Vec F S512x1 .f32
  | 0, h => (k3_pay5 (blockAt3 V c 3 ⟨0, h⟩) (blockAt3 V c 0 ⟨0, h⟩) (blockAt3 V c 1 ⟨0, h⟩) (blockAt3 V c 2 ⟨0, h⟩) k3_pay2,
      k3_pay6 (blockAt3 V c 3 ⟨0, h⟩) k3_pay3)
  | n + 1, h => (k3_pay5 (blockAt3 V c 3 ⟨n + 1, h⟩) (blockAt3 V c 0 ⟨n + 1, h⟩) (blockAt3 V c 1 ⟨n + 1, h⟩) (blockAt3 V c 2 ⟨n + 1, h⟩) (poolAcc c n (Nat.lt_of_succ_lt h)).1,
      k3_pay6 (blockAt3 V c 3 ⟨n + 1, h⟩) (poolAcc c n (Nat.lt_of_succ_lt h)).2)

theorem poolAcc_zero (c : Dev nD) (h : 0 < cfg3.N) :
    poolAcc V c 0 h = (k3_pay5 (blockAt3 V c 3 ⟨0, h⟩) (blockAt3 V c 0 ⟨0, h⟩) (blockAt3 V c 1 ⟨0, h⟩) (blockAt3 V c 2 ⟨0, h⟩) k3_pay2,
      k3_pay6 (blockAt3 V c 3 ⟨0, h⟩) k3_pay3) := rfl

theorem poolAcc_succ (c : Dev nD) (n : ℕ) (h : n + 1 < cfg3.N) :
    poolAcc V c (n + 1) h = (k3_pay5 (blockAt3 V c 3 ⟨n + 1, h⟩) (blockAt3 V c 0 ⟨n + 1, h⟩) (blockAt3 V c 1 ⟨n + 1, h⟩) (blockAt3 V c 2 ⟨n + 1, h⟩) (poolAcc V c n (Nat.lt_of_succ_lt h)).1,
      k3_pay6 (blockAt3 V c 3 ⟨n + 1, h⟩) (poolAcc V c n (Nat.lt_of_succ_lt h)).2) := rfl

theorem poolAcc_first (c : Dev nD) (t : Fin cfg3.N) (h0 : t.val % 10 = 0) :
    poolAcc V c t.val t.isLt = (k3_pay5 (blockAt3 V c 3 t) (blockAt3 V c 0 t) (blockAt3 V c 1 t) (blockAt3 V c 2 t) k3_pay2,
      k3_pay6 (blockAt3 V c 3 t) k3_pay3) := by
  obtain ⟨n, hn⟩ := t
  cases n with
  | zero => rfl
  | succ n => exfalso; have hN : n + 1 < 10 := lt_of_lt_of_eq hn (show cfg3.N = 10 from N_3); (try dsimp only at h0); omega

theorem poolAcc_later (c : Dev nD) (t : Fin cfg3.N) (h0 : ¬t.val % 10 = 0) :
    poolAcc V c t.val t.isLt = (k3_pay5 (blockAt3 V c 3 t) (blockAt3 V c 0 t) (blockAt3 V c 1 t) (blockAt3 V c 2 t) (poolAcc V c (t.val - 1) (Nat.lt_of_le_of_lt (Nat.sub_le _ _) t.isLt)).1,
      k3_pay6 (blockAt3 V c 3 t) (poolAcc V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => rfl

theorem nine_lt : 9 < cfg3.N := by rw [show cfg3.N = 10 from N_3]; decide

/-- The readout of the pooled sums and counts after the last point. -/
def poolOut (c : Dev nD) : Vec F S512x10 .f32 :=
  k3_pay1 (poolAcc V c 9 nine_lt).1 (poolAcc V c 9 nine_lt).2 (blockAt3 V c 4 t3_9) (blockAt3 V c 5 t3_9) (blockAt3 V c 6 t3_9) (blockAt3 V c 7 t3_9)

abbrev sumsM : Memref sig .tc .vmem S512x384 .f32 := Memref.whole cc3_scratch0
abbrev countsM : Memref sig .tc .vmem S512x1 .f32 := Memref.whole cc3_scratch1

theorem PhiA_eq (c : Dev nD) :
    (Pipeline.ΦA spec3 c : sProp 𝕄)
      = iprop(iprop(iprop((∃ d, owns (c : Thread nD τ) sumsM fullShare d) ∗ (∃ d, owns (c : Thread nD τ) countsM fullShare d))
          ∗ Pipeline.scopedRestBut spec3 c [cc3_scratch0, cc3_scratch1]) ∗ (∃ r, prngReg c r)) := by
  unfold Pipeline.ΦA; rw [scopedRest3_split]; simp only [sumsM, countsM, owns_whole]; try rfl

/-- Before the first point the two accumulators hold anything; afterwards what the point before left. -/
def PhiS (c : Dev nD) : (n : ℕ) → n ≤ cfg3.N → sProp 𝕄
  | 0, _ => Pipeline.ΦA spec3 c
  | n + 1, hn => iprop(iprop(iprop(owns (c : Thread nD τ) sumsM fullShare (poolAcc V c n hn).1 ∗ owns (c : Thread nD τ) countsM fullShare (poolAcc V c n hn).2)
      ∗ Pipeline.scopedRestBut spec3 c [cc3_scratch0, cc3_scratch1]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) sumsM fullShare (poolAcc V c n hn).1 ∗ owns (c : Thread nD τ) countsM fullShare (poolAcc V c n hn).2)
      ∗ Pipeline.scopedRestBut spec3 c [cc3_scratch0, cc3_scratch1]) ∗ (∃ r, prngReg c r)) := rfl

theorem PhiS_pos (c : Dev nD) (n : ℕ) (h : n ≤ cfg3.N) (hz : n ≠ 0) :
    PhiS V c n h = iprop(iprop(iprop(owns (c : Thread nD τ) sumsM fullShare (poolAcc V c (n - 1) (by omega)).1 ∗ owns (c : Thread nD τ) countsM fullShare (poolAcc V c (n - 1) (by omega)).2)
      ∗ Pipeline.scopedRestBut spec3 c [cc3_scratch0, cc3_scratch1]) ∗ (∃ r, prngReg c r)) := by
  cases n with
  | zero => exact absurd rfl hz
  | succ n => rfl

def poolDat (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => blockAt3 V c 5 t
    | ⟨6, _⟩ => blockAt3 V c 6 t
    | ⟨7, _⟩ => blockAt3 V c 7 t
    | ⟨8, _⟩ => poolOut V c
  Φ t := PhiS V c t.val (Nat.le_of_lt_succ t.isLt)
  q _ := fullShare
  owed _ := 0

theorem poolDat_A (c : Dev nD) (w : Fin cfg3.W) : (poolDat V c).A w = V c (Pipeline.arrRef spec3 w) := by
  dsimp only [poolDat]

theorem poolDat_after_last (c : Dev nD) : (poolDat V c).after 8 t3_9 = poolOut V c := by dsimp only [poolDat]

private theorem Phi_castSucc (c : Dev nD) (t : Fin cfg3.N) :
    (poolDat V c).Φ t.castSucc = PhiS V c t.val (Nat.le_of_lt t.isLt) := by
  dsimp only [poolDat]; simp only [Fin.coe_castSucc]

private theorem before_0 (c : Dev nD) (t : Fin cfg3.N) (d) : (poolDat V c).before 0 t d = blockAt3 V c 0 t :=
  ((poolDat V c).before_in_eq_fetched 0 rfl (fun _ => rfl) (fun _ _ _ => rfl) (fun _ => rfl) t d).trans rfl
private theorem before_1 (c : Dev nD) (t : Fin cfg3.N) (d) : (poolDat V c).before 1 t d = blockAt3 V c 1 t :=
  ((poolDat V c).before_in_eq_fetched 1 rfl (fun _ => rfl) (fun _ _ _ => rfl) (fun _ => rfl) t d).trans rfl
private theorem before_2 (c : Dev nD) (t : Fin cfg3.N) (d) : (poolDat V c).before 2 t d = blockAt3 V c 2 t :=
  ((poolDat V c).before_in_eq_fetched 2 rfl (fun _ => rfl) (fun _ _ _ => rfl) (fun _ => rfl) t d).trans rfl
private theorem before_3 (c : Dev nD) (t : Fin cfg3.N) (d) : (poolDat V c).before 3 t d = blockAt3 V c 3 t :=
  ((poolDat V c).before_in_eq_fetched 3 rfl (fun _ => rfl) (fun _ _ _ => rfl) (fun _ => rfl) t d).trans rfl
private theorem before_4 (c : Dev nD) (t : Fin cfg3.N) (d) : (poolDat V c).before 4 t d = blockAt3 V c 4 t :=
  ((poolDat V c).before_in_eq_fetched 4 rfl (fun _ => rfl) (fun _ _ _ => rfl) (fun _ => rfl) t d).trans rfl
private theorem before_5 (c : Dev nD) (t : Fin cfg3.N) (d) : (poolDat V c).before 5 t d = blockAt3 V c 5 t :=
  ((poolDat V c).before_in_eq_fetched 5 rfl (fun _ => rfl) (fun _ _ _ => rfl) (fun _ => rfl) t d).trans rfl
private theorem before_6 (c : Dev nD) (t : Fin cfg3.N) (d) : (poolDat V c).before 6 t d = blockAt3 V c 6 t :=
  ((poolDat V c).before_in_eq_fetched 6 rfl (fun _ => rfl) (fun _ _ _ => rfl) (fun _ => rfl) t d).trans rfl
private theorem before_7 (c : Dev nD) (t : Fin cfg3.N) (d) : (poolDat V c).before 7 t d = blockAt3 V c 7 t :=
  ((poolDat V c).before_in_eq_fetched 7 rfl (fun _ => rfl) (fun _ _ _ => rfl) (fun _ => rfl) t d).trans rfl

private theorem liveAt : ∀ (t : Fin cfg3.N) (w : Fin cfg3.W), w ≠ 8 → cfg3.idle w (grid3.coords t) = false := by decide +kernel

private theorem idleAt_8 : ∀ t : Fin cfg3.N, ¬isLast (grid3.coords t) → cfg3.idle 8 (grid3.coords t) = true := by decide +kernel

private theorem noFlush_8 : ∀ t : Fin cfg3.N, ¬isLast (grid3.coords t) → (cfg3.win 8).flush t = false := by decide +kernel

private theorem liveAt_8 : ∀ t : Fin cfg3.N, isLast (grid3.coords t) → cfg3.idle 8 (grid3.coords t) = false := by decide +kernel

private theorem leaves_0 (c : Dev nD) (t : Fin cfg3.N) : (poolDat V c).leavesExact 0 t = owns (c : Thread nD τ) (st3_0 t) fullShare (blockAt3 V c 0 t) := by
  unfold Dat.leavesExact; rw [liveAt t 0 (by decide)]; rfl
private theorem leaves_1 (c : Dev nD) (t : Fin cfg3.N) : (poolDat V c).leavesExact 1 t = owns (c : Thread nD τ) (st3_1 t) fullShare (blockAt3 V c 1 t) := by
  unfold Dat.leavesExact; rw [liveAt t 1 (by decide)]; rfl
private theorem leaves_2 (c : Dev nD) (t : Fin cfg3.N) : (poolDat V c).leavesExact 2 t = owns (c : Thread nD τ) (st3_2 t) fullShare (blockAt3 V c 2 t) := by
  unfold Dat.leavesExact; rw [liveAt t 2 (by decide)]; rfl
private theorem leaves_3 (c : Dev nD) (t : Fin cfg3.N) : (poolDat V c).leavesExact 3 t = owns (c : Thread nD τ) (st3_3 t) fullShare (blockAt3 V c 3 t) := by
  unfold Dat.leavesExact; rw [liveAt t 3 (by decide)]; rfl
private theorem leaves_4 (c : Dev nD) (t : Fin cfg3.N) : (poolDat V c).leavesExact 4 t = owns (c : Thread nD τ) (st3_4 t) fullShare (blockAt3 V c 4 t) := by
  unfold Dat.leavesExact; rw [liveAt t 4 (by decide)]; rfl
private theorem leaves_5 (c : Dev nD) (t : Fin cfg3.N) : (poolDat V c).leavesExact 5 t = owns (c : Thread nD τ) (st3_5 t) fullShare (blockAt3 V c 5 t) := by
  unfold Dat.leavesExact; rw [liveAt t 5 (by decide)]; rfl
private theorem leaves_6 (c : Dev nD) (t : Fin cfg3.N) : (poolDat V c).leavesExact 6 t = owns (c : Thread nD τ) (st3_6 t) fullShare (blockAt3 V c 6 t) := by
  unfold Dat.leavesExact; rw [liveAt t 6 (by decide)]; rfl
private theorem leaves_7 (c : Dev nD) (t : Fin cfg3.N) : (poolDat V c).leavesExact 7 t = owns (c : Thread nD τ) (st3_7 t) fullShare (blockAt3 V c 7 t) := by
  unfold Dat.leavesExact; rw [liveAt t 7 (by decide)]; rfl

private theorem after_8_last (c : Dev nD) (t : Fin cfg3.N) (h9 : t.val % 10 = 9) :
    (poolDat V c).after 8 t = k3_pay1
      (k3_pay5 (blockAt3 V c 3 t) (blockAt3 V c 0 t) (blockAt3 V c 1 t) (blockAt3 V c 2 t) (poolAcc V c (t.val - 1) (Nat.lt_of_le_of_lt (Nat.sub_le _ _) t.isLt)).1)
      (k3_pay6 (blockAt3 V c 3 t) (poolAcc V c (t.val - 1) (Nat.lt_of_le_of_lt (Nat.sub_le _ _) t.isLt)).2)
      (blockAt3 V c 4 t) (blockAt3 V c 5 t) (blockAt3 V c 6 t) (blockAt3 V c 7 t) := by
  have hN : t.val < 10 := lt_of_lt_of_eq t.isLt (show cfg3.N = 10 from N_3)
  obtain rfl : t = t3_9 := Fin.ext (by show t.val = 9; omega)
  rfl

private def bodyPre (c : Dev nD) (t : Fin cfg3.N) : sProp 𝕄 :=
  iprop((poolDat V c).Φ t.castSucc ∗ (poolDat V c).owesAt () t.castSucc
    ∗ (∃ d, owns (c : Thread nD τ) (st3_0 t) fullShare ((poolDat V c).before 0 t d))
    ∗ (∃ d, owns (c : Thread nD τ) (st3_1 t) fullShare ((poolDat V c).before 1 t d))
    ∗ (∃ d, owns (c : Thread nD τ) (st3_2 t) fullShare ((poolDat V c).before 2 t d))
    ∗ (∃ d, owns (c : Thread nD τ) (st3_3 t) fullShare ((poolDat V c).before 3 t d))
    ∗ (∃ d, owns (c : Thread nD τ) (st3_4 t) fullShare ((poolDat V c).before 4 t d))
    ∗ (∃ d, owns (c : Thread nD τ) (st3_5 t) fullShare ((poolDat V c).before 5 t d))
    ∗ (∃ d, owns (c : Thread nD τ) (st3_6 t) fullShare ((poolDat V c).before 6 t d))
    ∗ (∃ d, owns (c : Thread nD τ) (st3_7 t) fullShare ((poolDat V c).before 7 t d))
    ∗ (∃ d, owns (c : Thread nD τ) (st3_8 t) fullShare ((poolDat V c).before 8 t d)))

private def bodyPost (c : Dev nD) (t : Fin cfg3.N) : sProp 𝕄 :=
  iprop((poolDat V c).Φ t.succ ∗ (poolDat V c).owesAt () t.succ
    ∗ (poolDat V c).leavesExact 0 t
    ∗ (poolDat V c).leavesExact 1 t
    ∗ (poolDat V c).leavesExact 2 t
    ∗ (poolDat V c).leavesExact 3 t
    ∗ (poolDat V c).leavesExact 4 t
    ∗ (poolDat V c).leavesExact 5 t
    ∗ (poolDat V c).leavesExact 6 t
    ∗ (poolDat V c).leavesExact 7 t
    ∗ (poolDat V c).leavesExact 8 t)

private theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7]
  rw [show (poolDat V c).owesAt () t.succ = (poolDat V c).owesAt () t.castSucc from rfl]
  rw [show (poolDat V c).Φ t.succ = PhiS V c (t.val + 1) t.isLt from rfl, PhiS_succ]
  rw [leaves_0, leaves_1, leaves_2, leaves_3, leaves_4, leaves_5, leaves_6, leaves_7]
  have hN : t.val < 10 := lt_of_lt_of_eq t.isLt (show cfg3.N = 10 from N_3)
  have hfl : isFirst (grid3.coords t) → ¬isLast (grid3.coords t) := fun hf hl => by
    have := (isFirst_iff t).mp hf; have := (isLast_iff t).mp hl; omega
  by_cases h0 : t.val % 10 = 0
  · have hL : ¬isLast (grid3.coords t) := fun h => by have := (isLast_iff t).mp h; omega
    rw [Dat.leavesExact_idle (poolDat V c) 8 t (idleAt_8 t hL) (noFlush_8 t hL), poolAcc_first V c t h0]; dsimp only
    rw [Phi_castSucc V c t, PhiS_zero V c _ _ (by omega), PhiA_eq]
    iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runBody c (grid3.coords t) _ _ _ _ _ _ _ _ _ _ _ _ _ _ _ _ _ _ _ _ _ _ hfl (blockAt3 V c 0 t) (blockAt3 V c 1 t) (blockAt3 V c 2 t) (blockAt3 V c 3 t) (blockAt3 V c 4 t) (blockAt3 V c 5 t) (blockAt3 V c 6 t) (blockAt3 V c 7 t) _ _ _ _ _ _
      (if_pos ((isFirst_iff t).mpr h0)).symm (if_pos ((isFirst_iff t).mpr h0)).symm (if_neg hL).symm Set.univ _)
    iframe H0 H1 H2 H3 H4 H5 H6 H7 H8 HS0 HS1
    iintro ⟨H0, H1, H2, H3, H4, H5, H6, H7, H8, HS0, HS1⟩
    iframe
    iexists _; iexact H8
  · have hF : ¬isFirst (grid3.coords t) := fun h => h0 ((isFirst_iff t).mp h)
    rw [poolAcc_later V c t h0]; dsimp only
    rw [Phi_castSucc V c t, PhiS_pos V c _ _ (by omega)]
    by_cases h9 : t.val % 10 = 9
    · rw [show (poolDat V c).leavesExact 8 t = owns (c : Thread nD τ) (st3_8 t) fullShare ((poolDat V c).after 8 t) from by
        unfold Dat.leavesExact; rw [liveAt_8 t ((isLast_iff t).mpr h9)], after_8_last V c t h9]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runBody c (grid3.coords t) _ _ _ _ _ _ _ _ _ _ _ _ _ _ _ _ _ _ _ _ _ _ hfl (blockAt3 V c 0 t) (blockAt3 V c 1 t) (blockAt3 V c 2 t) (blockAt3 V c 3 t) (blockAt3 V c 4 t) (blockAt3 V c 5 t) (blockAt3 V c 6 t) (blockAt3 V c 7 t) _ _ _ _ _ _
        (if_neg hF).symm (if_neg hF).symm (if_pos ((isLast_iff t).mpr h9)).symm Set.univ _)
      iframe H0 H1 H2 H3 H4 H5 H6 H7 H8 HS0 HS1
      iintro ⟨H0, H1, H2, H3, H4, H5, H6, H7, H8, HS0, HS1⟩
      iframe
    · have hL : ¬isLast (grid3.coords t) := fun h => h9 ((isLast_iff t).mp h)
      rw [Dat.leavesExact_idle (poolDat V c) 8 t (idleAt_8 t hL) (noFlush_8 t hL)]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runBody c (grid3.coords t) _ _ _ _ _ _ _ _ _ _ _ _ _ _ _ _ _ _ _ _ _ _ hfl (blockAt3 V c 0 t) (blockAt3 V c 1 t) (blockAt3 V c 2 t) (blockAt3 V c 3 t) (blockAt3 V c 4 t) (blockAt3 V c 5 t) (blockAt3 V c 6 t) (blockAt3 V c 7 t) _ _ _ _ _ _
        (if_neg hF).symm (if_neg hF).symm (if_neg hL).symm Set.univ _)
      iframe H0 H1 H2 H3 H4 H5 H6 H7 H8 HS0 HS1
      iintro ⟨H0, H1, H2, H3, H4, H5, H6, H7, H8, HS0, HS1⟩
      iframe
      iexists _; iexact H8

theorem pool_obligation (c : Dev nD) : BodyObligation (poolDat (F := F) V c) (defs₀ (F := F)) Variants.none () Set.univ := fun t => by
  rw [bigSep_W3, bigSep_W3]
  exact sound_body V c t

theorem pool_hin (c : Dev nD) : Pipeline.ΦA spec3 c ⊢ (poolDat V c).Φ 0 := by
  rw [show (poolDat V c).Φ 0 = PhiS V c 0 (Nat.zero_le _) from rfl, PhiS_zero V c 0 _ rfl]
  try exact Idealize.SL.BI.Entails.refl _

theorem pool_hout (c : Dev nD) : (poolDat V c).Φ (Fin.last cfg3.N) ⊢ Pipeline.ΦA spec3 c := by
  rw [show (poolDat V c).Φ (Fin.last cfg3.N) = PhiS V c (Fin.last cfg3.N).val (Nat.le_of_lt_succ (Fin.last cfg3.N).isLt) from rfl,
    PhiS_pos V c _ _ (by rw [Fin.val_last]; have : cfg3.N = 10 := N_3; omega), PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Cert.KernelIdeal.Hand

end
-- ==== Proof.HandKernelIdeal.Run.lean ====
import proofs.«426644_j22574348108036_2_alg».proof.Proof.HandKernelIdeal.Layer0
import proofs.«426644_j22574348108036_2_alg».proof.Proof.HandKernelIdeal.Layer1
import proofs.«426644_j22574348108036_2_alg».proof.Proof.HandKernelIdeal.Layer2
import proofs.«426644_j22574348108036_2_alg».proof.Proof.HandKernelIdeal.Pool
import proofs.«426644_j22574348108036_2_alg».proof.Proof.Gen.KernelIdeal.Regions
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VOf (W : Dev nD → Valuation τ sig (Elt F)) : (c : Dev nD) → (b : Ref sig .tc) → Buf (Elt F) ((c : Thread nD τ).loc b) :=
  fun c b => W c b
-- The memory after a region: the region's arrays at what its points wrote back, every other buffer as before.
abbrev exitOf {cfg : Cfg sig Λ₀} (W : Dev nD → Valuation τ sig (Elt F))
    (D : (c : Dev nD) → Dat τ (Elt F) Unit ℕ (UR sig nD τ) ℕ cfg c) (c : Dev nD) : Valuation τ sig (Elt F) :=
  Pipeline.withArrays cfg.spec c (W c) fun w => (D c).arrAt w cfg.N
theorem exitOf_arr {cfg : Cfg sig Λ₀} (W : Dev nD → Valuation τ sig (Elt F)) (D : (c : Dev nD) → Dat τ (Elt F) Unit ℕ (UR sig nD τ) ℕ cfg c)
    (hinj : Function.Injective (Pipeline.arrRef cfg.spec)) (c : Dev nD) (w : Fin cfg.W) :
    exitOf W D c (Proc.devRef .tc (Pipeline.arrRef cfg.spec w)) = (D c).arrAt w cfg.N :=
  Pipeline.withArrays_arr cfg.spec hinj c _ _ w

abbrev W0 : Dev nD → Valuation τ sig (Elt F) := fun c b => m (c, b)
abbrev W1 : Dev nD → Valuation τ sig (Elt F) := fun c => StableHlo.after hostOps0 (W0 m c)
abbrev V1 := VOf (W1 m)
def W2 := exitOf (W1 m) (layerDat0 (V1 m))
abbrev V2 := VOf (W2 m)
abbrev W3 : Dev nD → Valuation τ sig (Elt F) := fun c => StableHlo.after hostOps1 (W2 m c)
abbrev V3 := VOf (W3 m)
def W4 := exitOf (W3 m) (layerDat1 (V3 m))
abbrev V4 := VOf (W4 m)
abbrev W5 : Dev nD → Valuation τ sig (Elt F) := fun c => StableHlo.after hostOps2 (W4 m c)
abbrev V5 := VOf (W5 m)
def W6 := exitOf (W5 m) (layerDat2 (V5 m))
abbrev V6 := VOf (W6 m)
abbrev W7 : Dev nD → Valuation τ sig (Elt F) := fun c => StableHlo.after hostOps3 (W6 m c)
abbrev V7 := VOf (W7 m)
def W8 := exitOf (W7 m) (poolDat (V7 m))
abbrev V8 := VOf (W8 m)

theorem hF0 (c : Dev nD) (w : Fin cfg0.W) : (layerDat0 (V1 m) c).arrAt w cfg0.N = V2 m c (Pipeline.arrRef spec0 w) :=
  (exitOf_arr (W1 m) (layerDat0 (V1 m)) launch0.win.arr_inj c w).symm
theorem hF1 (c : Dev nD) (w : Fin cfg1.W) : (layerDat1 (V3 m) c).arrAt w cfg1.N = V4 m c (Pipeline.arrRef spec1 w) :=
  (exitOf_arr (W3 m) (layerDat1 (V3 m)) launch1.win.arr_inj c w).symm
theorem hF2 (c : Dev nD) (w : Fin cfg2.W) : (layerDat2 (V5 m) c).arrAt w cfg2.N = V6 m c (Pipeline.arrRef spec2 w) :=
  (exitOf_arr (W5 m) (layerDat2 (V5 m)) launch2.win.arr_inj c w).symm

def pdats : (p : Fin 4) → (c : Dev nD) → Dat τ (Elt F) Unit ℕ (UR sig nD τ) ℕ (cfgs p) c
  | ⟨0, _⟩ => layerDat0 (V1 m)
  | ⟨1, _⟩ => layerDat1 (V3 m)
  | ⟨2, _⟩ => layerDat2 (V5 m)
  | ⟨3, _⟩ => poolDat (V7 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A region takes the memory W to the memory after it; the four regions differ only in their number.
def regOf (p : Fin 4) (lf : Pipeline.LaunchFacts (nD := nD) (τ := τ) cfgs p) (W : Dev nD → Valuation τ sig (Elt F))
    (hbody : ∀ c, Pipeline.BodyObligationLoose (pdats m p c) defs₀ 𝒱₀ () Set.univ)
    (hin : ∀ c, Pipeline.ΦA (cfgs p).spec c ⊢ (pdats m p c).Φ 0 := by exact fun _ => .rfl)
    (hout : ∀ c, (pdats m p c).Φ (Fin.last _) ⊢ Pipeline.ΦA (cfgs p).spec c := by exact fun _ => .rfl)
    (hA : ∀ c w, (pdats m p c).A w = W c (Proc.devRef .tc (Pipeline.arrRef (cfgs p).spec w)) := by exact fun _ _ => rfl)
    (hq : ∀ c w, (pdats m p c).q w = fullShare := by exact fun _ _ => rfl)
    (how : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p how
  pre := T W
  post := T (exitOf W (pdats m p))
  X c := iprop(∃ r, prngReg c r)
  Y c := iprop(∃ r, prngReg c r)
  Z c := Pipeline.unscopedRest (cfgs p).spec c (VOf W c)
  hentry c := by
    rw [Pipeline.ownSems0_none]
    have hsplit := Pipeline.arrays_of_unscopedBufs (p := p) (pcfgs (F := F)) adm (pdats m) lf.win lf.arr_whole c
      ((pdats m p c).share_full (hq c)) (VOf W c) (hA c)
    rw [Pipeline.unscopedBufs_held] at hsplit
    iintro ⟨⟨Hub, Hp, HO⟩, -, -⟩
    ihave H := hsplit $$ Hub
    icases H with ⟨Ha, Hrest⟩
    imodintro; iframe Ha Hp Hrest
    isplitr; · unfold Pipeline.prefHeld; rw [show (Finset.univ : Finset (Fin 0)) = ∅ from rfl, BI.bigSep_empty]; iempintro
    unfold Pipeline.Dat.owesAt Pipeline.owesWithin; rw [how c 0]
    icases HO with ⟨%W', HO⟩; iexists W'; iframe HO; ipureintro; exact fun _ _ => Or.inl (hrec c ▸ trivial)
  hin c := by
    refine .trans ?_ (hin c); unfold Pipeline.ΦA
    iintro ⟨Hp, -, Hr⟩; iframe Hr Hp
  hout c := by
    refine (hout c).trans ?_; rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m) ((pdats m p c).share_full (hq c))
      (VOf W c) (VOf (exitOf W (pdats m p)) c) ((pdats m p c).arrAt · (cfgs p).N)
      (fun w => (exitOf_arr W (pdats m p) lf.win.arr_inj c w).symm)
      (fun b hb => Pipeline.withArrays_of_ne (cfgs p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin; rw [how c]
    icases HO with ⟨%W', -, HO⟩; iexists W'; iexact HO

def reg0 := regOf m 0 launch0 (W1 m) fun c => (layer_obligation0 (V1 m) c).loose
def reg1 := regOf m 1 launch1 (W3 m) fun c => (layer_obligation1 (V3 m) c).loose
def reg2 := regOf m 2 launch2 (W5 m) fun c => (layer_obligation2 (V5 m) c).loose
def reg3 := regOf m 3 launch3 (W7 m) (fun c => (pool_obligation (V7 m) c).loose) (pool_hin (V7 m)) (pool_hout (V7 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

abbrev u₀ := Rounds.initOf (Pipeline.cells cfgs cellOf_inj) (Pipeline.launchToks cfgs cellOf_inj)

-- Every weakly fair run terminates without a fault, in the memory after the fourth region.
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rewrite [main_chain c, Pipeline.Seg.run_eq_chain]; exact .rfl)
    (show ([0, 1, 2, 3] : List (Fin 4)).Nodup by decide)
    (O₀ := 0) (hL := fun _ _ => rfl) (G := fun _ => iprop(emp))
    (u₀ := u₀)
    (hu₀ := by
      iintro Hu; imodintro; isplitl [Hu]
      · iapply (show (ownU u₀ : sProp 𝕄) ⊢ BI.own (emb₁ u₀) from .rfl); iexact Hu
      iapply (Entails.of_eq (BI.bigSep_emp_const _).symm); iempintro)
    (T₀ := T (W0 m)) (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun _ => sep_assoc.2⟩)
    (hinit := by
      refine Pipeline.initEach L lv fun c => ?_
      rw [Pipeline.unscopedBufs_held c (W0 m c)]
      iintro ⟨⟨Hh, -, HO, -, Hp, -⟩, -⟩
      imodintro
      isplitl [Hh]; · iexact Hh
      isplitl [Hp] <;> iexists _ <;> iassumption)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      iframe Hh HSI)
    (hQ := fun _ h => h)

end Cert.KernelIdeal.Hand

end
-- ==== Proof.HandKernelIdeal.Ends.lean ====
import proofs.«426644_j22574348108036_2_alg».proof.Proof.HandKernelIdeal.Run

noncomputable section

namespace Cert.KernelIdeal.Hand

open Idealize.ShloMosaic Idealize.ShloMosaic.TcCoe Idealize.SL.Sem
open Idealize.ShloMosaic.Pipeline (Dat Cfg)
open Cert.KernelIdeal Cert.KernelIdeal.Gen

variable {F : FTy → Type} [FloatOps F]

variable (m : (ℓ : Loc nD τ sig) → Buf (Elt F) ℓ) (ρ : Dev nD → PrngReg)

-- A region changes only its result array: every input array ends as it began.
theorem keep_of {cfg : Cfg sig Λ₀} {c : Dev nD} (D : Dat τ (Elt F) Unit ℕ (UR sig nD τ) ℕ cfg c) (V : Valuation τ sig (Elt F))
    (hinj : Function.Injective (Pipeline.arrRef cfg.spec)) (hA : ∀ w, D.A w = V (Proc.devRef .tc (Pipeline.arrRef cfg.spec w)))
    (o : Ref sig .tc) (ho : ∀ w, Pipeline.arrRef cfg.spec w ≠ o → (cfg.win w).isOut = false) (b : Ref sig .tc) (hb : b ≠ o) :
    Pipeline.withArrays cfg.spec c V (fun w => D.arrAt w cfg.N) (Proc.devRef .tc b) = V (Proc.devRef .tc b) := by
  by_cases h : ∃ w, Pipeline.arrRef cfg.spec w = b
  · obtain ⟨w, rfl⟩ := h
    exact (Pipeline.withArrays_arr cfg.spec hinj c _ _ w).trans ((D.arrAt_in w (ho w hb) _).trans (hA w))
  · exact Pipeline.withArrays_of_ne cfg.spec c _ _ b fun w e => h ⟨w, e⟩

theorem W1_keep (c : Dev nD) (b : Ref sig .tc) (hb : b ∉ hostOps0_W) : W1 m c (Proc.devRef .tc b) = W0 m c (Proc.devRef .tc b) :=
  StableHlo.after_of_writes_sub hostOps0 _ hostOps0_writes hb
theorem W2_keep (c : Dev nD) (b : Ref sig .tc) (hb : b ≠ main_v32) : W2 m c (Proc.devRef .tc b) = W1 m c (Proc.devRef .tc b) :=
  keep_of (layerDat0 (V1 m) c) (W1 m c) launch0.win.arr_inj (fun _ => rfl) main_v32 (by decide) b hb
theorem W3_keep (c : Dev nD) (b : Ref sig .tc) (hb : b ∉ hostOps1_W) : W3 m c (Proc.devRef .tc b) = W2 m c (Proc.devRef .tc b) :=
  StableHlo.after_of_writes_sub hostOps1 _ hostOps1_writes hb
theorem W4_keep (c : Dev nD) (b : Ref sig .tc) (hb : b ≠ main_v52) : W4 m c (Proc.devRef .tc b) = W3 m c (Proc.devRef .tc b) :=
  keep_of (layerDat1 (V3 m) c) (W3 m c) launch1.win.arr_inj (fun _ => rfl) main_v52 (by decide) b hb
theorem W5_keep (c : Dev nD) (b : Ref sig .tc) (hb : b ∉ hostOps2_W) : W5 m c (Proc.devRef .tc b) = W4 m c (Proc.devRef .tc b) :=
  StableHlo.after_of_writes_sub hostOps2 _ hostOps2_writes hb
theorem W6_keep (c : Dev nD) (b : Ref sig .tc) (hb : b ≠ main_v72) : W6 m c (Proc.devRef .tc b) = W5 m c (Proc.devRef .tc b) :=
  keep_of (layerDat2 (V5 m) c) (W5 m c) launch2.win.arr_inj (fun _ => rfl) main_v72 (by decide) b hb
theorem W7_keep (c : Dev nD) (b : Ref sig .tc) (hb : b ∉ hostOps3_W) : W7 m c (Proc.devRef .tc b) = W6 m c (Proc.devRef .tc b) :=
  StableHlo.after_of_writes_sub hostOps3 _ hostOps3_writes hb
theorem W8_keep (c : Dev nD) (b : Ref sig .tc) (hb : b ≠ main_v76) : W8 m c (Proc.devRef .tc b) = W7 m c (Proc.devRef .tc b) :=
  keep_of (poolDat (V7 m) c) (W7 m c) launch3.win.arr_inj (fun _ => rfl) main_v76 (by decide) b hb

theorem W8_untouched (c : Dev nD) (b : Ref sig .tc) (h0 : b ∉ hostOps0_W) (h1 : b ∉ hostOps1_W) (h2 : b ∉ hostOps2_W) (h3 : b ∉ hostOps3_W)
    (n0 : b ≠ main_v32) (n1 : b ≠ main_v52) (n2 : b ≠ main_v72) (n3 : b ≠ main_v76) :
    W8 m c (Proc.devRef .tc b) = m ((c.tc : Thread nD τ).loc b) :=
  (W8_keep m c b n3).trans <| (W7_keep m c b h3).trans <| (W6_keep m c b n2).trans <| (W5_keep m c b h2).trans <|
    (W4_keep m c b n1).trans <| (W3_keep m c b h1).trans <| (W2_keep m c b n0).trans <| (W1_keep m c b h0).trans rfl

theorem W8_result (c : Dev nD) : W8 m c (Proc.devRef .tc main_v76) = (poolDat (V7 m) c).arrAt 8 cfg3.N :=
  Pipeline.withArrays_arr spec3 launch3.win.arr_inj c (W7 m c) (fun w => (poolDat (V7 m) c).arrAt w cfg3.N) 8

theorem run_result : θ_run defs (onTc (τ := τ) (main (F := F))) ⟨m, fun _ => 0, ρ⟩ (fun r => ∀ c : Dev nD,
      r.2.mem ((c.tc : Thread nD τ).loc main_v76) = (poolDat (V7 m) c).arrAt 8 cfg3.N
      ∧ r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    have k (b : Ref sig .tc) : (¬ (Proc.devRef .tc b : DevRef τ sig).isScoped ∧ b ∉ hostOps0_W ∧ b ∉ hostOps1_W ∧ b ∉ hostOps2_W
        ∧ b ∉ hostOps3_W ∧ b ≠ main_v32 ∧ b ≠ main_v52 ∧ b ≠ main_v72 ∧ b ≠ main_v76) →
        r.2.mem ((c.tc : Thread nD τ).loc b) = m ((c.tc : Thread nD τ).loc b)
      | ⟨hs, h0, h1, h2, h3, n0, n1, n2, n3⟩ => (h c _ (mem_uc b hs)).trans (W8_untouched m c b h0 h1 h2 h3 n0 n1 n2 n3)
    ⟨(h c _ (mem_uc main_v76 (by decide))).trans (W8_result m c), k main_arg0 (by decide), k main_arg1 (by decide),
      k main_arg2 (by decide), k main_arg3 (by decide), k main_arg4 (by decide), k main_arg5 (by decide), k main_arg6 (by decide),
      k main_arg7 (by decide), k main_arg8 (by decide), k main_arg9 (by decide)⟩)
    (run_all m ρ)

theorem frame_hand : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => (h c).2) (run_result m ρ)

end Cert.KernelIdeal.Hand

end
-- ==== Proof.Spec.lean ====
import Idealize.ShloMosaic.PureOps.Ideal
import Idealize.ShloMosaic.PureOps.Ideal.Laws
import Idealize.ShloMosaic.Lib.ValueIdx
import Idealize.ShloMosaic.Lib.StableHlo.Predicate

noncomputable section

namespace Cert.Spec

open Idealize.ShloMosaic Idealize.ShloMosaic.ValueIdx Idealize.ShloMosaic.StableHlo.Predicate

section layer

variable (a : FVec Ideal ⟨2, ![50000, 128]⟩ .f32) (d : FVec Ideal ⟨2, ![50000, 1]⟩ .f32) (h : FVec Ideal ⟨2, ![50000, 128]⟩ .f32)
  (wl : FVec Ideal ⟨2, ![128, 128]⟩ .f32) (b : FVec Ideal ⟨2, ![1, 128]⟩ .f32) (wr : FVec Ideal ⟨2, ![128, 128]⟩ .f32)

/-- Entry (r, j) of a layer: the neighbour sum scaled by the inverse degree through `wl`, plus the bias, plus the node's row through `wr`. -/
def layerAt (r : Fin 50000) (j : Fin 128) : EReal :=
  ((∑ k : Fin 128, (a (ix2 r k) * d (ix2 r (0 : Fin 1))) * wl (ix2 k j)) + b (ix2 (0 : Fin 1) j)) + ∑ k : Fin 128, h (ix2 r k) * wr (ix2 k j)

def layerFn : FVec Ideal ⟨2, ![50000, 128]⟩ .f32 :=
  fun i => layerAt a d h wl b wr ⟨(i 0).val, (i 0).isLt⟩ ⟨(i 1).val, (i 1).isLt⟩

theorem layerFn_ix2 (r : Fin 50000) (j : Fin 128) : layerFn a d h wl b wr (ix2 r j) = layerAt a d h wl b wr r j := rfl

end layer

variable (h1 h2 h3 : FVec Ideal ⟨2, ![50000, 128]⟩ .f32) (ids : IVec ⟨2, ![50000, 1]⟩ 32)
  (w1 : FVec Ideal ⟨2, ![384, 128]⟩ .f32) (b1 : FVec Ideal ⟨2, ![1, 128]⟩ .f32)
  (w2 : FVec Ideal ⟨2, ![128, 10]⟩ .f32) (b2 : FVec Ideal ⟨2, ![1, 10]⟩ .f32)

/-- Column q of node n's three layer outputs laid side by side. -/
def catAt (n : Fin 50000) (q : Fin 384) : EReal :=
  if h : q.val < 128 then h1 (ix2 n ⟨q.val, h⟩)
  else if h' : q.val < 256 then h2 (ix2 n ⟨q.val - 128, by omega⟩)
  else h3 (ix2 n ⟨q.val - 256, by omega⟩)

/-- The nodes whose id word, read signed, is g. -/
def members (g : Fin 512) : Finset (Fin 50000) :=
  Finset.univ.filter fun n : Fin 50000 => (ids (ixP n)).toInt = (g.val : ℤ)

def pooledAt (g : Fin 512) (q : Fin 384) : EReal :=
  ∑ n ∈ members ids g, catAt h1 h2 h3 n q
def countAt (g : Fin 512) : EReal :=
  ∑ _n ∈ members ids g, (1 : EReal)

/-- The pooled mean (count at least one) through `w1` and `b1`, clamped below at zero. -/
def hiddenAt (g : Fin 512) (j : Fin 128) : EReal :=
  max ((∑ q : Fin 384, Ideal.div (pooledAt h1 h2 h3 ids g q) (max (countAt ids g) (Ideal.ofBits .f32 0x3F800000#32)) * w1 (ix2 q j))
      + b1 (ix2 (0 : Fin 1) j)) (Ideal.ofBits .f32 0x00000000#32)

def readoutAt (g : Fin 512) (t : Fin 10) : EReal :=
  (∑ j : Fin 128, hiddenAt h1 h2 h3 ids w1 b1 g j * w2 (ix2 j t)) + b2 (ix2 (0 : Fin 1) t)

def readoutFn : FVec Ideal ⟨2, ![512, 10]⟩ .f32 :=
  fun i => readoutAt h1 h2 h3 ids w1 b1 w2 b2 ⟨(i 0).val, (i 0).isLt⟩ ⟨(i 1).val, (i 1).isLt⟩

theorem readoutFn_ix2 (g : Fin 512) (t : Fin 10) :
    readoutFn h1 h2 h3 ids w1 b1 w2 b2 (ix2 g t) = readoutAt h1 h2 h3 ids w1 b1 w2 b2 g t := rfl

end Cert.Spec

end
-- ==== Proof.LibEntry.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.LibEntry

open Idealize.ShloMosaic Idealize.ShloMosaic.ValueIdx

-- An [a, 1] column spread to [a, b] holds, in every column, the column's own entry of that row.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- A product contracting ONE axis of extent n, added onto zero: entry j sums, over that axis, the operands where the dimension numbers send (j, k).
theorem matmul0_apply {sl sr so : Shape} {φ₁ φ₂ : FTy} (d : DotDims sl sr so) (n : ℕ) (hr : d.contr.rank = 1)
    (hs : d.contr.size ⟨0, by omega⟩ = n) (x : FVec Ideal sl φ₁) (w : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none x w (constant (F := Ideal) so .f32 0x00000000#32) j = ∑ k : Fin n, x (L k) * w (R k) := by
  simp only [matmul]
  rw [Ideal.matmul_constant_zero_apply, ← Equiv.sum_comp (contrEquiv1 d n hr hs).symm]
  exact Finset.sum_congr rfl fun k _ => by rw [hL, hR]

end Cert.LibEntry

end
-- ==== Proof.Value.LayerEntry.lean ====
import proofs.«426644_j22574348108036_2_alg».proof.Proof.Gen.KernelIdeal.Skeleton
import proofs.«426644_j22574348108036_2_alg».proof.Proof.LibEntry

noncomputable section

namespace Cert.KernelIdeal.HandValue.Layer

open Idealize.ShloMosaic Idealize.ShloMosaic.ValueIdx
open Cert.KernelIdeal Cert.KernelIdeal.Gen

theorem layerValue_apply (a : Vec Ideal S5000x128 .f32) (d : Vec Ideal S5000x1 .f32) (h : Vec Ideal S5000x128 .f32)
    (wl wr : Vec Ideal S128x128 .f32) (b : Vec Ideal S1x128 .f32) (p : Fin 5000) (q : Fin 128) :
    k0_pay1 (F := Ideal) a d h wl wr b (ix2 p q)
      = ((∑ k : Fin 128, (a (ix2 p k) * d (ix2 p (0 : Fin 1))) * wl (ix2 k q)) + b (ix2 (0 : Fin 1) q))
        + ∑ k : Fin 128, h (ix2 p k) * wr (ix2 k q) := by
  have pz := fun (x : FVec Ideal S5000x128 .bf16) (w : FVec Ideal S128x128 .bf16) =>
    LibEntry.matmul0_apply dot_S5000x128_S128x128_S5000x128_1_0_0_1_n_n 128 rfl rfl x w (ix2 p q) (ix2 p) (ix2 · q)
      (fun _ => Shape.idx_ext₂ rfl rfl) fun _ => Shape.idx_ext₂ rfl rfl
  unfold k0_pay1
  simp only [shapeCast_self]
  rw [addf_apply, addf_apply, pz, pz, broadcastTo_1b_ab_apply]
  simp only [truncf_apply, mulf_apply, LibEntry.broadcastTo_a1_ab_apply]

theorem k1_pay1_eq : @k1_pay1 Ideal _ = k0_pay1 := by
  funext a d h wl wr b
  unfold k1_pay1 k0_pay1
  simp only [shapeCast_self]

theorem k2_pay1_eq : @k2_pay1 Ideal _ = k0_pay1 := k1_pay1_eq

-- Entry (p, q) of the block at block index (i₀, 0) sits at (i₀ · bm + p, q) of the array,
theorem emb_rows {m n bm bn : Nat} {e : (⟨2, ![bm, bn]⟩ : Shape).Idx → (⟨2, ![m, n]⟩ : Shape).Idx} {i : Fin 2 → Nat} {i₀ : Nat}
    (he : ∀ y a, (e y a : Nat) = i a * (![bm, bn] : Fin 2 → Nat) a + y a) (hi : i = ![i₀, 0]) (p : Fin bm) (q : Fin bn) :
    (e (ix2 p q) 0 : Nat) = i₀ * bm + p ∧ (e (ix2 p q) 1 : Nat) = q := by
  subst hi
  exact ⟨he _ 0, (he _ 1).trans (by show 0 * bn + q.val = q.val; omega)⟩

-- and at (p, q) itself when the block index is (0, 0).
theorem emb_whole {m n bm bn : Nat} {e : (⟨2, ![bm, bn]⟩ : Shape).Idx → (⟨2, ![m, n]⟩ : Shape).Idx} {i : Fin 2 → Nat}
    (he : ∀ y a, (e y a : Nat) = i a * (![bm, bn] : Fin 2 → Nat) a + y a) (hi : i = ![0, 0]) (p : Fin bm) (q : Fin bn) :
    (e (ix2 p q) 0 : Nat) = p ∧ (e (ix2 p q) 1 : Nat) = q :=
  ⟨(emb_rows he hi p q).1.trans (by omega), (emb_rows he hi p q).2⟩

-- On blocks that are rows i₀ · 5000 … of the three row arrays, with the weights and the bias whole, the body's value is those rows of the layer update.
theorem layer_rows (i₀ : Nat) (a h : FVec Ideal S50000x128 .f32) (d : FVec Ideal S50000x1 .f32)
    (wl wr : FVec Ideal S128x128 .f32) (b : FVec Ideal S1x128 .f32)
    {e0 e2 e6 : S5000x128.Idx → S50000x128.Idx} {e1 : S5000x1.Idx → S50000x1.Idx} {e3 e5 : S128x128.Idx → S128x128.Idx}
    {e4 : S1x128.Idx → S1x128.Idx} {i0 i1 i2 i3 i4 i5 i6 : Fin 2 → Nat}
    (h0 : ∀ y a, (e0 y a : Nat) = i0 a * S5000x128.size a + y a) (h1 : ∀ y a, (e1 y a : Nat) = i1 a * S5000x1.size a + y a)
    (h2 : ∀ y a, (e2 y a : Nat) = i2 a * S5000x128.size a + y a) (h3 : ∀ y a, (e3 y a : Nat) = i3 a * S128x128.size a + y a)
    (h4 : ∀ y a, (e4 y a : Nat) = i4 a * S1x128.size a + y a) (h5 : ∀ y a, (e5 y a : Nat) = i5 a * S128x128.size a + y a)
    (h6 : ∀ y a, (e6 y a : Nat) = i6 a * S5000x128.size a + y a)
    (hi : i0 = ![i₀, 0] ∧ i1 = ![i₀, 0] ∧ i2 = ![i₀, 0] ∧ i3 = ![0, 0] ∧ i4 = ![0, 0] ∧ i5 = ![0, 0] ∧ i6 = ![i₀, 0])
    (y : S5000x128.Idx) :
    k0_pay1 (F := Ideal) (fun x => a (e0 x)) (fun x => d (e1 x)) (fun x => h (e2 x)) (fun x => wl (e3 x)) (fun x => wr (e5 x))
        (fun x => b (e4 x)) y
      = ((∑ k : Fin 128, (a (ix2 ⟨(e6 y 0).val, (e6 y 0).isLt⟩ k) * d (ix2 ⟨(e6 y 0).val, (e6 y 0).isLt⟩ (0 : Fin 1)))
            * wl (ix2 k ⟨(e6 y 1).val, (e6 y 1).isLt⟩)) + b (ix2 (0 : Fin 1) ⟨(e6 y 1).val, (e6 y 1).isLt⟩))
        + ∑ k : Fin 128, h (ix2 ⟨(e6 y 0).val, (e6 y 0).isLt⟩ k) * wr (ix2 k ⟨(e6 y 1).val, (e6 y 1).isLt⟩) := by
  obtain ⟨g0, g1, g2, g3, g4, g5, g6⟩ := hi
  obtain ⟨p, q, rfl⟩ : ∃ (p : Fin 5000) (q : Fin 128), y = ix2 p q := ⟨y 0, y 1, eq_ix2 y⟩
  have r6 := emb_rows h6 g6 p q
  rw [layerValue_apply]
  refine congrArg₂ (· + ·) (congrArg₂ (· + ·) (Finset.sum_congr rfl fun k _ => congrArg₂ (· * ·)
    (congrArg₂ (· * ·) (congrArg a ?_) (congrArg d ?_)) (congrArg wl ?_)) (congrArg b ?_))
    (Finset.sum_congr rfl fun k _ => congrArg₂ (· * ·) (congrArg h ?_) (congrArg wr ?_))
  · exact Shape.idx_ext₂ ((emb_rows h0 g0 p k).1.trans r6.1.symm) (emb_rows h0 g0 p k).2
  · exact Shape.idx_ext₂ ((emb_rows h1 g1 p 0).1.trans r6.1.symm) (emb_rows h1 g1 p 0).2
  · exact Shape.idx_ext₂ (emb_whole h3 g3 k q).1 ((emb_whole h3 g3 k q).2.trans r6.2.symm)
  · exact Shape.idx_ext₂ (emb_whole h4 g4 0 q).1 ((emb_whole h4 g4 0 q).2.trans r6.2.symm)
  · exact Shape.idx_ext₂ ((emb_rows h2 g2 p k).1.trans r6.1.symm) (emb_rows h2 g2 p k).2
  · exact Shape.idx_ext₂ (emb_whole h5 g5 k q).1 ((emb_whole h5 g5 k q).2.trans r6.2.symm)

-- Ten blocks of 5000 rows cover the 50000 rows.
theorem rows_cover {N : Nat} (hN : N = 10) {e : Fin N → S5000x128.Idx → S50000x128.Idx} {i : Fin N → Fin 2 → Nat}
    (he : ∀ t y a, (e t y a : Nat) = i t a * S5000x128.size a + y a) (hi : ∀ t, i t = ![t.val, 0]) (x : S50000x128.Idx) :
    ∃ t y, e t y = x := by
  subst hN
  have hx := idx2_lt0 x
  refine ⟨⟨(x 0).val / 5000, by omega⟩, ix2 ⟨(x 0).val % 5000, Nat.mod_lt _ (by decide)⟩ (x 1), funext fun a => Fin.ext ?_⟩
  rw [he, hi]
  match a with
  | ⟨0, _⟩ => show (x 0).val / 5000 * 5000 + (x 0).val % 5000 = (x 0).val; omega
  | ⟨1, _⟩ => show 0 * 128 + (x 1).val = (x 1).val; omega

end Cert.KernelIdeal.HandValue.Layer

end
-- ==== Proof.Value.LayerValue0.lean ====
import proofs.«426644_j22574348108036_2_alg».proof.Proof.HandKernelIdeal.Layer0
import proofs.«426644_j22574348108036_2_alg».proof.Proof.Spec
import proofs.«426644_j22574348108036_2_alg».proof.Proof.Value.LayerEntry

noncomputable section

namespace Cert.KernelIdeal.HandValue

open Idealize.ShloMosaic Idealize.ShloMosaic.TcCoe Idealize.SL.Sem
open Cert.KernelIdeal Cert.KernelIdeal.Gen Cert.KernelIdeal.Hand Layer

variable (V : (c : Dev nD) → (b : Ref sig .tc) → Buf (Elt Ideal) ((c : Thread nD τ).loc b))

private theorem blockIndex_facts : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] :=
  (by decide +kernel : ∀ t : Fin grid0.N, _)

theorem layer0_final (c : Dev nD) :
    (layerDat0 V c).arrAt 6 cfg0.N
      = Cert.Spec.layerFn (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (layerDat0 V c).arrAt_eq_of_cover 6 _ (fun t _ => funext fun y =>
    (congrFun ((layerDat0_after6 V c t).trans (layerOut0_eq _ _ _ _ _ _)) y).trans
      (layer_rows t.val _ _ _ _ _ _ (win0_0.rect_emb_val t)
      (win0_1.rect_emb_val t) (win0_2.rect_emb_val t) (win0_3.rect_emb_val t) (win0_4.rect_emb_val t) (win0_5.rect_emb_val t)
      (win0_6.rect_emb_val t) (blockIndex_facts t) y)) fun i => by
    obtain ⟨t, y, rfl⟩ := rows_cover N_0 win0_6.rect_emb_val (fun t => (blockIndex_facts t).2.2.2.2.2.2) i
    exact ⟨t, flush0_6 t, View.emb_mem_set _ y⟩

end Cert.KernelIdeal.HandValue

end
-- ==== Proof.Value.LayerValue1.lean ====
import proofs.«426644_j22574348108036_2_alg».proof.Proof.HandKernelIdeal.Layer1
import proofs.«426644_j22574348108036_2_alg».proof.Proof.Spec
import proofs.«426644_j22574348108036_2_alg».proof.Proof.Value.LayerEntry

noncomputable section

namespace Cert.KernelIdeal.HandValue

open Idealize.ShloMosaic Idealize.ShloMosaic.TcCoe Idealize.SL.Sem
open Cert.KernelIdeal Cert.KernelIdeal.Gen Cert.KernelIdeal.Hand Layer

variable (V : (c : Dev nD) → (b : Ref sig .tc) → Buf (Elt Ideal) ((c : Thread nD τ).loc b))

private theorem blockIndex_facts : ∀ t : Fin cfg1.N,
    win1_0.index t = ![t.val, 0] ∧ win1_1.index t = ![t.val, 0] ∧ win1_2.index t = ![t.val, 0] ∧ win1_3.index t = ![0, 0]
    ∧ win1_4.index t = ![0, 0] ∧ win1_5.index t = ![0, 0] ∧ win1_6.index t = ![t.val, 0] :=
  (by decide +kernel : ∀ t : Fin grid1.N, _)

theorem layer1_final (c : Dev nD) :
    (layerDat1 V c).arrAt 6 cfg1.N
      = Cert.Spec.layerFn (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (layerDat1 V c).arrAt_eq_of_cover 6 _ (fun t _ => funext fun y =>
    (congrFun ((layerDat1_after6 V c t).trans (k1_pay1_eq ▸ layerOut1_eq _ _ _ _ _ _)) y).trans
      (layer_rows t.val _ _ _ _ _ _ (win1_0.rect_emb_val t)
      (win1_1.rect_emb_val t) (win1_2.rect_emb_val t) (win1_3.rect_emb_val t) (win1_4.rect_emb_val t) (win1_5.rect_emb_val t)
      (win1_6.rect_emb_val t) (blockIndex_facts t) y)) fun i => by
    obtain ⟨t, y, rfl⟩ := rows_cover N_1 win1_6.rect_emb_val (fun t => (blockIndex_facts t).2.2.2.2.2.2) i
    exact ⟨t, flush1_6 t, View.emb_mem_set _ y⟩

end Cert.KernelIdeal.HandValue

end
-- ==== Proof.Value.LayerValue2.lean ====
import proofs.«426644_j22574348108036_2_alg».proof.Proof.HandKernelIdeal.Layer2
import proofs.«426644_j22574348108036_2_alg».proof.Proof.Spec
import proofs.«426644_j22574348108036_2_alg».proof.Proof.Value.LayerEntry

noncomputable section

namespace Cert.KernelIdeal.HandValue

open Idealize.ShloMosaic Idealize.ShloMosaic.TcCoe Idealize.SL.Sem
open Cert.KernelIdeal Cert.KernelIdeal.Gen Cert.KernelIdeal.Hand Layer

variable (V : (c : Dev nD) → (b : Ref sig .tc) → Buf (Elt Ideal) ((c : Thread nD τ).loc b))

private theorem blockIndex_facts : ∀ t : Fin cfg2.N,
    win2_0.index t = ![t.val, 0] ∧ win2_1.index t = ![t.val, 0] ∧ win2_2.index t = ![t.val, 0] ∧ win2_3.index t = ![0, 0]
    ∧ win2_4.index t = ![0, 0] ∧ win2_5.index t = ![0, 0] ∧ win2_6.index t = ![t.val, 0] :=
  (by decide +kernel : ∀ t : Fin grid2.N, _)

theorem layer2_final (c : Dev nD) :
    (layerDat2 V c).arrAt 6 cfg2.N
      = Cert.Spec.layerFn (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (layerDat2 V c).arrAt_eq_of_cover 6 _ (fun t _ => funext fun y =>
    (congrFun ((layerDat2_after6 V c t).trans (k2_pay1_eq ▸ layerOut2_eq _ _ _ _ _ _)) y).trans
      (layer_rows t.val _ _ _ _ _ _ (win2_0.rect_emb_val t)
      (win2_1.rect_emb_val t) (win2_2.rect_emb_val t) (win2_3.rect_emb_val t) (win2_4.rect_emb_val t) (win2_5.rect_emb_val t)
      (win2_6.rect_emb_val t) (blockIndex_facts t) y)) fun i => by
    obtain ⟨t, y, rfl⟩ := rows_cover N_2 win2_6.rect_emb_val (fun t => (blockIndex_facts t).2.2.2.2.2.2) i
    exact ⟨t, flush2_6 t, View.emb_mem_set _ y⟩

end Cert.KernelIdeal.HandValue

end
-- ==== Proof.Value.PoolAccValue.lean ====
import proofs.«426644_j22574348108036_2_alg».proof.Proof.HandKernelIdeal.Pool
import proofs.«426644_j22574348108036_2_alg».proof.Proof.Spec
import proofs.«426644_j22574348108036_2_alg».proof.Proof.LibEntry
import Idealize.ShloMosaic.Lib.StableHlo.Predicate
import Idealize.ShloMosaic.Lib.IdealHost

noncomputable section

namespace Cert.KernelIdeal.HandValue

open Idealize.ShloMosaic Idealize.ShloMosaic.TcCoe Idealize.ShloMosaic.ValueIdx
open Idealize.ShloMosaic.StableHlo.Predicate (ixP)
open Cert.KernelIdeal Cert.KernelIdeal.Gen Cert.KernelIdeal.Hand Cert.LibEntry

theorem bit_toInt (b : BitVec 1) : (b.setWidth 32).toInt = if b = 1#1 then 1 else 0 := by
  rcases BitVec.eq_zero_or_eq_one b with h | h <;> subst h <;> decide

-- A 32-bit word is the word of g < 512 exactly when, read signed, it is g.
theorem idWord_iff (w : BitVec 32) (g : Fin 512) : w = BitVec.ofNat 32 g.val ↔ w.toInt = (g.val : ℤ) := by
  have hg : (BitVec.ofNat 32 g.val).toInt = (g.val : ℤ) :=
    Idealize.ShloMosaic.StableHlo.Predicate.toInt_ofNat_small g.val (by have := g.isLt; omega)
  exact ⟨fun h => h ▸ hg, fun h => BitVec.eq_of_toInt_eq (h.trans hg.symm)⟩

-- Entry (r, g) of a block's membership matrix: 1 when row r's id, read signed, is g, else 0.
theorem membership_apply (ids : Vec Ideal S5000x1 .i32) (r : Fin 5000) (g : Fin 512) :
    k3_pay4 (F := Ideal) ids (ix2 r g) = if (ids (ix2 r (0 : Fin 1))).toInt = (g.val : ℤ) then (1 : EReal) else 0 := by
  unfold k3_pay4
  rw [truncf_apply, sitofp_apply, extui_apply]
  show FloatOps.sitofp .f32 ((IntOp.cmpi .eq (broadcastTo _ _ _ _) (broadcastTo _ _ _ _)).setWidth 32) = _
  rw [broadcastTo_a1_ab_apply, broadcastTo_1b_ab_apply, shapeCast_self, iota_single_apply]
  show (((BitVec.setWidth 32 (IntOp.cmpi .eq _ _)).toInt : ℝ) : EReal) = _
  rw [bit_toInt, if_congr (Idealize.ShloMosaic.StableHlo.Predicate.cmpi_eq_iff.trans (idWord_iff _ g)) rfl rfl]
  split <;> simp

-- Column 128 k + j of three 128-column blocks laid side by side is column j of block k.
theorem sideBySide_piece {α : Type} (y0 y1 y2 : S5000x128.Idx → α) (r : Fin 5000) (q : Fin 384) (k : Fin 3) (j : Fin 128)
    (hq : 128 * k.val + j.val = q.val) :
    concatenate S5000x384 1 [⟨S5000x128, y0⟩, ⟨S5000x128, y1⟩, ⟨S5000x128, y2⟩]
        concatenates_S5000x128_S5000x128_S5000x128_S5000x384_d1 (ix2 r q) = (![y0, y1, y2] k) (ix2 r j) := by
  refine concatenate_apply_piece (1 : Fin S5000x384.rank) _ _ (ix2 r q) k.val (by exact k.isLt) S5000x128 _ ?_ rfl (128 * k.val) ?_
    (ix2 r j) ?_ hq
  · fin_cases k <;> rfl
  · fin_cases k <;> rfl
  · intro b hb
    match b with
    | ⟨0, _⟩ => rfl
    | ⟨1, _⟩ => exact absurd rfl hb

-- Where row r of three blocks is row i of three arrays, the blocks side by side hold, in that row, the arrays side by side.
theorem cat_rows (A0 A1 A2 : FVec Ideal ⟨2, ![50000, 128]⟩ .f32) (i : Fin 50000) (y0 y1 y2 : S5000x128.Idx → EReal) (r : Fin 5000)
    (h0 : ∀ k : Fin 128, y0 (ix2 r k) = A0 (ix2 i k)) (h1 : ∀ k : Fin 128, y1 (ix2 r k) = A1 (ix2 i k))
    (h2 : ∀ k : Fin 128, y2 (ix2 r k) = A2 (ix2 i k)) (q : Fin 384) :
    concatenate S5000x384 1 [⟨S5000x128, y0⟩, ⟨S5000x128, y1⟩, ⟨S5000x128, y2⟩]
        concatenates_S5000x128_S5000x128_S5000x128_S5000x384_d1 (ix2 r q) = Cert.Spec.catAt A0 A1 A2 i q := by
  unfold Cert.Spec.catAt
  split
  · next h => exact (sideBySide_piece y0 y1 y2 r q 0 ⟨q.val, h⟩ (Nat.zero_add _)).trans (h0 _)
  · split
    · next h h' =>
      exact (sideBySide_piece y0 y1 y2 r q 1 ⟨q.val - 128, by omega⟩ (by show 128 * 1 + (q.val - 128) = q.val; omega)).trans (h1 _)
    · next h h' =>
      exact (sideBySide_piece y0 y1 y2 r q 2 ⟨q.val - 256, by omega⟩ (by show 128 * 2 + (q.val - 256) = q.val; omega)).trans (h2 _)

-- Row r of block n among all 50000 rows.
def node (n : ℕ) (hn : n < 10) (r : Fin 5000) : Fin 50000 := finProdFinEquiv ((⟨n, hn⟩ : Fin 10), r)

-- Ten blocks of 5000 terms, added block after block onto zero, are all 50000 terms.
theorem fold_blocks (F : Fin 50000 → EReal) (a : (n : ℕ) → n < 10 → EReal)
    (h0 : a 0 (by decide) = 0 + ∑ r, F (node 0 (by decide) r))
    (hs : ∀ n (h : n + 1 < 10), a (n + 1) h = a n (Nat.lt_of_succ_lt h) + ∑ r, F (node (n + 1) h r)) :
    a 9 (by decide) = ∑ i, F i := by
  have key : ∀ n (h : n < 10), a n h = ∑ t : Fin (n + 1), ∑ r, F (node t.val (lt_of_lt_of_le t.isLt h) r) := by
    intro n
    induction n with
    | zero => intro h; rw [h0, zero_add, Fin.sum_univ_one]; rfl
    | succ n ih => intro h; rw [Fin.sum_univ_castSucc, hs, ih]; rfl
  rw [key 9 (by decide)]
  exact ((Equiv.sum_comp (finProdFinEquiv : Fin 10 × Fin 5000 ≃ Fin 50000) F).symm.trans (Fintype.sum_prod_type _)).symm

-- A sum weighted by membership in graph g is the sum over g's members.
theorem sum_members (I : IVec ⟨2, ![50000, 1]⟩ 32) (g : Fin 512) (f : Fin 50000 → EReal) :
    ∑ i, (if (I (ixP i)).toInt = (g.val : ℤ) then (1 : EReal) else 0) * f i = ∑ i ∈ Cert.Spec.members I g, f i := by
  unfold Cert.Spec.members
  rw [Finset.sum_filter]
  exact Finset.sum_congr rfl fun i _ => boole_mul _ _

theorem pooledZero_apply (g : Fin 512) (q : Fin 384) : (k3_pay2 (F := Ideal)) (ix2 g q) = 0 := by
  unfold k3_pay2
  rw [shapeCast_self, broadcast_apply]
  exact Ideal.ofBits_zero_f32
theorem countZero_apply (g : Fin 512) : (k3_pay3 (F := Ideal)) (ix2 g (0 : Fin 1)) = 0 := by
  unfold k3_pay3
  rw [shapeCast_self, broadcast_apply]
  exact Ideal.ofBits_zero_f32

variable (V : (c : Dev nD) → (b : Ref sig .tc) → Buf (Elt Ideal) ((c : Thread nD τ).loc b))

theorem blockIndex3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0) :=
  (by decide +kernel : ∀ t : Fin grid3.N, _)

-- Row r of block t of each of the four blocked arrays is row 5000 t + r of the array.
theorem featBlock0 (c : Dev nD) (t : Fin cfg3.N) (hn : t.val < 10) (r : Fin 5000) (j : Fin 128) :
    blockAt3 V c 0 t (ix2 r j) = V c (Pipeline.arrRef spec3 0) (ix2 (node t.val hn r) j) :=
  congrArg (V c (Pipeline.arrRef spec3 0)) (Shape.idx_ext₂
    (by show win3_0.index t 0 * 5000 + 1 * r.val = r.val + 5000 * t.val; rw [(blockIndex3 t).1.1]; omega)
    (by show win3_0.index t 1 * 128 + 1 * j.val = j.val; rw [(blockIndex3 t).1.2]; omega))
theorem featBlock1 (c : Dev nD) (t : Fin cfg3.N) (hn : t.val < 10) (r : Fin 5000) (j : Fin 128) :
    blockAt3 V c 1 t (ix2 r j) = V c (Pipeline.arrRef spec3 1) (ix2 (node t.val hn r) j) :=
  congrArg (V c (Pipeline.arrRef spec3 1)) (Shape.idx_ext₂
    (by show win3_1.index t 0 * 5000 + 1 * r.val = r.val + 5000 * t.val; rw [(blockIndex3 t).2.1.1]; omega)
    (by show win3_1.index t 1 * 128 + 1 * j.val = j.val; rw [(blockIndex3 t).2.1.2]; omega))
theorem featBlock2 (c : Dev nD) (t : Fin cfg3.N) (hn : t.val < 10) (r : Fin 5000) (j : Fin 128) :
    blockAt3 V c 2 t (ix2 r j) = V c (Pipeline.arrRef spec3 2) (ix2 (node t.val hn r) j) :=
  congrArg (V c (Pipeline.arrRef spec3 2)) (Shape.idx_ext₂
    (by show win3_2.index t 0 * 5000 + 1 * r.val = r.val + 5000 * t.val; rw [(blockIndex3 t).2.2.1.1]; omega)
    (by show win3_2.index t 1 * 128 + 1 * j.val = j.val; rw [(blockIndex3 t).2.2.1.2]; omega))
theorem idBlock (c : Dev nD) (t : Fin cfg3.N) (hn : t.val < 10) (r : Fin 5000) :
    blockAt3 V c 3 t (ix2 r (0 : Fin 1)) = V c (Pipeline.arrRef spec3 3) (ixP (node t.val hn r)) :=
  congrArg (V c (Pipeline.arrRef spec3 3)) (Shape.idx_ext₂
    (by show win3_3.index t 0 * 5000 + 1 * r.val = r.val + 5000 * t.val; rw [(blockIndex3 t).2.2.2.1]; omega)
    (by show win3_3.index t 1 * 1 + 1 * 0 = 0; rw [(blockIndex3 t).2.2.2.2]))

-- One block adds, at (g, q), the concatenated feature q of its rows whose id is g (i r: the block's row r among all rows).
theorem pooledStep {A0 A1 A2 : FVec Ideal ⟨2, ![50000, 128]⟩ .f32} {I : IVec ⟨2, ![50000, 1]⟩ 32} {ids : Vec Ideal S5000x1 .i32}
    {x0 x1 x2 : Vec Ideal S5000x128 .f32} (i : Fin 5000 → Fin 50000) (hids : ∀ r, ids (ix2 r (0 : Fin 1)) = I (ixP (i r)))
    (h0 : ∀ r (k : Fin 128), x0 (ix2 r k) = A0 (ix2 (i r) k)) (h1 : ∀ r (k : Fin 128), x1 (ix2 r k) = A1 (ix2 (i r) k))
    (h2 : ∀ r (k : Fin 128), x2 (ix2 r k) = A2 (ix2 (i r) k)) (acc : Vec Ideal S512x384 .f32) (g : Fin 512) (q : Fin 384) :
    k3_pay5 (F := Ideal) ids x0 x1 x2 acc (ix2 g q)
      = acc (ix2 g q) + ∑ r, (if (I (ixP (i r))).toInt = (g.val : ℤ) then (1 : EReal) else 0) * Cert.Spec.catAt A0 A1 A2 (i r) q := by
  unfold k3_pay5
  simp only [shapeCast_self]
  rw [addf_apply, matmul0_apply dot_S5000x512_S5000x384_S512x384_0_0_1_1_n_n 5000 rfl rfl _ _ (ix2 g q) (ix2 · g) (ix2 · q)
    (fun _ => Shape.idx_ext₂ rfl rfl) (fun _ => Shape.idx_ext₂ rfl rfl)]
  refine congrArg (acc (ix2 g q) + ·) (Finset.sum_congr rfl fun r _ => ?_)
  rw [membership_apply, hids, shapeCast_self x0, shapeCast_self x1, shapeCast_self x2]
  exact congrArg (_ * ·) (cat_rows A0 A1 A2 (i r) _ _ _ r (h0 r) (h1 r) (h2 r) q)

-- One block adds, at (g, 0), one for each of its rows whose id is g.
theorem countStep {I : IVec ⟨2, ![50000, 1]⟩ 32} {ids : Vec Ideal S5000x1 .i32} (i : Fin 5000 → Fin 50000)
    (hids : ∀ r, ids (ix2 r (0 : Fin 1)) = I (ixP (i r))) (acc : Vec Ideal S512x1 .f32) (g : Fin 512) :
    k3_pay6 (F := Ideal) ids acc (ix2 g (0 : Fin 1))
      = acc (ix2 g (0 : Fin 1)) + ∑ r, (if (I (ixP (i r))).toInt = (g.val : ℤ) then (1 : EReal) else 0) * 1 := by
  unfold k3_pay6
  rw [shapeCast_self, addf_apply, matmul0_apply dot_S5000x512_S5000x1_S512x1_0_0_1_1_n_n 5000 rfl rfl _ _ (ix2 g (0 : Fin 1)) (ix2 · g) (ix2 · (0 : Fin 1))
    (fun _ => Shape.idx_ext₂ rfl rfl) (fun _ => Shape.idx_ext₂ rfl rfl)]
  refine congrArg (acc (ix2 g (0 : Fin 1)) + ·) (Finset.sum_congr rfl fun r _ => ?_)
  rw [membership_apply, hids, broadcast_apply]
  exact congrArg (_ * ·) Ideal.ofBits_one_bf16

theorem poolAcc_last_pooled (c : Dev nD) (h9 : 9 < cfg3.N) (g : Fin 512) (q : Fin 384) :
    (poolAcc V c 9 h9).1 (ix2 g q)
      = Cert.Spec.pooledAt (V c (Pipeline.arrRef spec3 0)) (V c (Pipeline.arrRef spec3 1)) (V c (Pipeline.arrRef spec3 2))
          (V c (Pipeline.arrRef spec3 3)) g q :=
  (fold_blocks _ (fun n h => (poolAcc V c n (h.trans_eq N_3.symm)).1 (ix2 g q))
    (by rw [poolAcc_zero]
        exact (pooledStep (node 0 (by decide)) (idBlock V c _ _) (featBlock0 V c _ _) (featBlock1 V c _ _) (featBlock2 V c _ _) _ g q).trans
          (congrArg (· + _) (pooledZero_apply g q)))
    (fun n h => by
      rw [poolAcc_succ]
      exact pooledStep (node (n + 1) h) (idBlock V c _ _) (featBlock0 V c _ _) (featBlock1 V c _ _) (featBlock2 V c _ _) _ g q)).trans
    (sum_members _ g _)

theorem poolAcc_last_count (c : Dev nD) (h9 : 9 < cfg3.N) (g : Fin 512) :
    (poolAcc V c 9 h9).2 (ix2 g (0 : Fin 1)) = Cert.Spec.countAt (V c (Pipeline.arrRef spec3 3)) g :=
  (fold_blocks _ (fun n h => (poolAcc V c n (h.trans_eq N_3.symm)).2 (ix2 g (0 : Fin 1)))
    (by rw [poolAcc_zero]; exact (countStep (node 0 (by decide)) (idBlock V c _ _) _ g).trans (congrArg (· + _) (countZero_apply g)))
    (fun n h => by rw [poolAcc_succ]; exact countStep (node (n + 1) h) (idBlock V c _ _) _ g)).trans
    (sum_members _ g fun _ => 1)

end Cert.KernelIdeal.HandValue
end
-- ==== Proof.Value.PoolOutValue.lean ====
import proofs.«426644_j22574348108036_2_alg».proof.Proof.HandKernelIdeal.Pool
import proofs.«426644_j22574348108036_2_alg».proof.Proof.Spec
import proofs.«426644_j22574348108036_2_alg».proof.Proof.LibEntry

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.LibEntry

variable (V : (c : Dev nD) → (b : Ref sig .tc) → Buf (Elt Ideal) ((c : Thread nD τ).loc b))

namespace Readout

-- A block at index zero on every axis and of the array's own extents is the array.
theorem read_whole (b : Ref sig .tc) (idx : Fin b.ty.shape.rank → ℕ) (h0 : ∀ a, idx a = 0)
    (inb : ∀ a, idx a * b.ty.shape.size a + b.ty.shape.size a ≤ b.ty.shape.size a) (f : b.ty.Contents (Elt Ideal)) :
    ((Memref.whole b).access (Rect.unit (fun a => idx a * b.ty.shape.size a) b.ty.shape.size inb) : View sig .tc _ _ _).read (Elt Ideal) f = f :=
  Memref.read_access_unit_zero _ b (funext fun a => by rw [h0 a, Nat.zero_mul]) inb f

theorem wholeBlock4 (c : Dev nD) : blockAt3 V c 4 t3_9 = V c (Pipeline.arrRef spec3 4) :=
  read_whole main_arg6 (win3_4.index t3_9) (by decide) _ _
theorem wholeBlock5 (c : Dev nD) : blockAt3 V c 5 t3_9 = V c (Pipeline.arrRef spec3 5) :=
  read_whole main_v73 (win3_5.index t3_9) (by decide) _ _
theorem wholeBlock6 (c : Dev nD) : blockAt3 V c 6 t3_9 = V c (Pipeline.arrRef spec3 6) :=
  read_whole main_arg8 (win3_6.index t3_9) (by decide) _ _
theorem wholeBlock7 (c : Dev nD) : blockAt3 V c 7 t3_9 = V c (Pipeline.arrRef spec3 7) :=
  read_whole main_v74 (win3_7.index t3_9) (by decide) _ _

-- The last block covers all 512 × 10 entries.
theorem arr_of_last (c : Dev nD) (D : Dat τ (Elt Ideal) Unit ℕ (UR sig nD τ) ℕ cfg3 c) (G : Vec Ideal S512x10 .f32)
    (hG : D.after 8 t3_9 = G) : D.arrAt 8 cfg3.N = G :=
  D.arrAt_eq_of_cover 8 G (fun t hf => by
      have hN : cfg3.N = 10 := N_3
      obtain rfl : t = t3_9 := Fin.ext (show t.val = 9 by have := (flush3_8 t).mp hf; have := t.isLt; omega)
      show (cfg3.win 8).cut (grid3.coords t3_9) (D.after 8 t3_9) = _
      rw [hG]
      exact (read_whole main_v76 (win3_8.index t3_9) (by decide) _ G).symm) fun i =>
    ⟨t3_9, (flush3_8 t3_9).mpr rfl, by
      show i ∈ ((View.whole main_v76).slice (win3_8.rect t3_9)).set
      rw [View.set_slice_whole, Rect.mem_set_unit]
      intro a
      have hz : ∀ a, win3_8.index t3_9 a * win3_8.size a = 0 ∧ win3_8.xsize (grid3.coords t3_9) a = S512x10.size a := by decide +kernel
      show win3_8.index t3_9 a * win3_8.size a ≤ (i a : ℕ) ∧ (i a : ℕ) < win3_8.index t3_9 a * win3_8.size a + win3_8.xsize (grid3.coords t3_9) a
      rw [(hz a).1, (hz a).2, Nat.zero_add]
      exact ⟨Nat.zero_le _, (i a).isLt⟩⟩

-- Entry (g, t) of the readout: graph g's pooled sums over its clamped count, through the first weight and bias, clamped at zero, through the second.
theorem readout_of_pooled {P : Vec Ideal S512x384 .f32} {C : Vec Ideal S512x1 .f32}
    {h1 h2 h3 : FVec Ideal ⟨2, ![50000, 128]⟩ .f32} {ids : IVec ⟨2, ![50000, 1]⟩ 32}
    (w1 : Vec Ideal S384x128 .f32) (b1 : Vec Ideal S1x128 .f32) (w2 : Vec Ideal S128x10 .f32) (b2 : Vec Ideal S1x10 .f32)
    (hP : ∀ (g : Fin 512) (q : Fin 384), P (ix2 g q) = Cert.Spec.pooledAt h1 h2 h3 ids g q)
    (hC : ∀ g : Fin 512, C (ix2 g (0 : Fin 1)) = Cert.Spec.countAt ids g) :
    k3_pay1 P C w1 b1 w2 b2 = Cert.Spec.readoutFn h1 h2 h3 ids w1 b1 w2 b2 := by
  funext i
  obtain ⟨g, t, rfl⟩ : ∃ (g : Fin 512) (t : Fin 10), i = ix2 g t := ⟨i 0, i 1, eq_ix2 i⟩
  rw [Cert.Spec.readoutFn_ix2]
  unfold k3_pay1 Cert.Spec.readoutAt Cert.Spec.hiddenAt
  simp only [shapeCast_self]
  rw [addf_apply, broadcastTo_1b_ab_apply,
    matmul0_apply dot_S512x128_S128x10_S512x10_1_0_0_1_n_n 128 rfl rfl _ _ (ix2 g t) (ix2 g) (ix2 · t)
      (fun _ => Shape.idx_ext₂ rfl rfl) (fun _ => Shape.idx_ext₂ rfl rfl)]
  refine congrArg (· + b2 (ix2 (0 : Fin 1) t)) (Finset.sum_congr rfl fun j _ => ?_)
  rw [truncf_apply, truncf_apply, maximumf_apply, addf_apply, broadcastTo_1b_ab_apply, broadcast_apply, Ideal.ofBits_def,
    matmul0_apply dot_S512x384_S384x128_S512x128_1_0_0_1_n_n 384 rfl rfl _ _ (ix2 g j) (ix2 g) (ix2 · j)
      (fun _ => Shape.idx_ext₂ rfl rfl) (fun _ => Shape.idx_ext₂ rfl rfl)]
  refine congrArg (fun s => max (s + b1 (ix2 (0 : Fin 1) j)) (Ideal.ofBits .f32 0x00000000#32) * w2 (ix2 j t))
    (Finset.sum_congr rfl fun q _ => ?_)
  rw [truncf_apply, truncf_apply, divf_apply, broadcastTo_a1_ab_apply, maximumf_apply, broadcast_apply, hP, hC]

theorem poolOut_eq (c : Dev nD)
    (hP : ∀ (h9 : 9 < cfg3.N) (g : Fin 512) (q : Fin 384), (poolAcc V c 9 h9).1 (ix2 g q)
      = Cert.Spec.pooledAt (V c (Pipeline.arrRef spec3 0)) (V c (Pipeline.arrRef spec3 1)) (V c (Pipeline.arrRef spec3 2))
          (V c (Pipeline.arrRef spec3 3)) g q)
    (hC : ∀ (h9 : 9 < cfg3.N) (g : Fin 512), (poolAcc V c 9 h9).2 (ix2 g (0 : Fin 1))
      = Cert.Spec.countAt (V c (Pipeline.arrRef spec3 3)) g) :
    poolOut V c = Cert.Spec.readoutFn (V c (Pipeline.arrRef spec3 0)) (V c (Pipeline.arrRef spec3 1)) (V c (Pipeline.arrRef spec3 2))
      (V c (Pipeline.arrRef spec3 3)) (V c (Pipeline.arrRef spec3 4)) (V c (Pipeline.arrRef spec3 5)) (V c (Pipeline.arrRef spec3 6))
      (V c (Pipeline.arrRef spec3 7)) :=
  (readout_of_pooled (blockAt3 V c 4 t3_9) (blockAt3 V c 5 t3_9) (blockAt3 V c 6 t3_9) (blockAt3 V c 7 t3_9) (hP nine_lt) (hC nine_lt)).trans
    (by rw [wholeBlock4 V c, wholeBlock5 V c, wholeBlock6 V c, wholeBlock7 V c])

end Readout

theorem pool_final (c : Dev nD)
    (hP : ∀ (h9 : 9 < cfg3.N) (g : Fin 512) (q : Fin 384), (poolAcc V c 9 h9).1 (ix2 g q)
      = Cert.Spec.pooledAt (V c (Pipeline.arrRef spec3 0)) (V c (Pipeline.arrRef spec3 1)) (V c (Pipeline.arrRef spec3 2))
          (V c (Pipeline.arrRef spec3 3)) g q)
    (hC : ∀ (h9 : 9 < cfg3.N) (g : Fin 512), (poolAcc V c 9 h9).2 (ix2 g (0 : Fin 1))
      = Cert.Spec.countAt (V c (Pipeline.arrRef spec3 3)) g) :
    (poolDat V c).arrAt 8 cfg3.N = Cert.Spec.readoutFn (V c (Pipeline.arrRef spec3 0)) (V c (Pipeline.arrRef spec3 1)) (V c (Pipeline.arrRef spec3 2))
      (V c (Pipeline.arrRef spec3 3)) (V c (Pipeline.arrRef spec3 4)) (V c (Pipeline.arrRef spec3 5)) (V c (Pipeline.arrRef spec3 6))
      (V c (Pipeline.arrRef spec3 7)) :=
  Readout.arr_of_last c (poolDat V c) _ ((poolDat_after_last V c).trans (Readout.poolOut_eq V c hP hC))

end Cert.KernelIdeal.HandValue

end
-- ==== Proof.Value.RefLayers.lean ====
import proofs.«426644_j22574348108036_2_alg».proof.Proof.Gen.ReferenceIdeal.Read
import proofs.«426644_j22574348108036_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

-- Entry (r, j) of (s Wl + B) + h Wr, where s (r, k) = a (r, k) · d (r, 0), B repeats b down the rows: the layer function at (r, j).
theorem layer_entry (a h s : (⟨S50000x128, .f32⟩ : BufTy).Contents (Elt Ideal)) (d : (⟨S50000x1, .f32⟩ : BufTy).Contents (Elt Ideal))
    (wl wr : (⟨S128x128, .f32⟩ : BufTy).Contents (Elt Ideal)) (b : (⟨S1x128, .f32⟩ : BufTy).Contents (Elt Ideal))
    (hs : ∀ (r : Fin 50000) (k : Fin 128), s (ix2 r k) = FloatOps.mulf (F := Ideal) (φ := .f32) (a (ix2 r k)) (d (ix2 r (0 : Fin 1))))
    (r : Fin 50000) (j : Fin 128) :
    FloatOps.addf
        (FloatOps.addf (∑ k : Fin 128, s (lidx_main_v27 (ix2 r j) k) * wl (ridx_main_v27 (ix2 r j) k)) (b (idx_main_v31 (ix2 r j))))
        (∑ k : Fin 128, h (lidx_main_v35 (ix2 r j) k) * wr (ridx_main_v35 (ix2 r j) k))
      = Cert.Spec.layerFn a d h wl b wr (ix2 r j) := by
  rw [show idx_main_v31 (ix2 r j) = ix2 (0 : Fin 1) j from eq_ix2 _, Cert.Spec.layerFn_ix2, Ideal.addf_def, Ideal.addf_def]
  unfold Cert.Spec.layerAt
  refine congrArg₂ (· + ·) (congrArg₂ (· + ·) (Finset.sum_congr rfl fun k _ => ?_) rfl) (Finset.sum_congr rfl fun k _ => ?_)
  · rw [show lidx_main_v27 (ix2 r j) k = ix2 r k from eq_ix2 _, show ridx_main_v27 (ix2 r j) k = ix2 k j from eq_ix2 _, hs r k,
      Ideal.mulf_def]
  · rw [show lidx_main_v35 (ix2 r j) k = ix2 r k from eq_ix2 _, show ridx_main_v35 (ix2 r j) k = ix2 k j from eq_ix2 _]

variable (x0 : (⟨S50000x128, .f32⟩ : BufTy).Contents (Elt Ideal)) (x1 : (⟨S2x800000, .i32⟩ : BufTy).Contents (Elt Ideal))
  (x3 : (⟨S3x128x128, .f32⟩ : BufTy).Contents (Elt Ideal)) (x4 : (⟨S3x128, .f32⟩ : BufTy).Contents (Elt Ideal))
  (x5 : (⟨S3x128x128, .f32⟩ : BufTy).Contents (Elt Ideal))

theorem layer1_ref : val_main_v36 (F := Ideal) x0 x1 x3 x4 x5
    = Cert.Spec.layerFn (val_main_v22 (F := Ideal) x0 x1) (val_main_v12 (F := Ideal) x1) x0
        (val_main_v26 (F := Ideal) x3) (val_main_v30 (F := Ideal) x4) (val_main_v34 (F := Ideal) x5) := by
  funext i
  obtain ⟨r, j, rfl⟩ : ∃ (r : Fin 50000) (j : Fin 128), i = ix2 r j := ⟨i 0, i 1, eq_ix2 i⟩
  rw [val_main_v36_apply, val_main_v32_apply, val_main_v27_apply, val_main_v31_apply, val_main_v35_apply]
  exact layer_entry _ _ (val_main_v24 (F := Ideal) x0 x1) _ _ _ _ (fun r k => by
    rw [val_main_v24_apply, val_main_v23_apply, show idx_main_v23 (ix2 r k) = ix2 r (0 : Fin 1) from eq_ix2 _]) _ _

theorem layer2_ref : val_main_v60 (F := Ideal) x0 x1 x3 x4 x5
    = Cert.Spec.layerFn (val_main_v46 (F := Ideal) x0 x1 x3 x4 x5) (val_main_v12 (F := Ideal) x1) (val_main_v36 (F := Ideal) x0 x1 x3 x4 x5)
        (val_main_v50 (F := Ideal) x3) (val_main_v54 (F := Ideal) x4) (val_main_v58 (F := Ideal) x5) := by
  funext i
  obtain ⟨r, j, rfl⟩ : ∃ (r : Fin 50000) (j : Fin 128), i = ix2 r j := ⟨i 0, i 1, eq_ix2 i⟩
  rw [val_main_v60_apply, val_main_v56_apply, val_main_v51_apply, val_main_v55_apply, val_main_v59_apply]
  exact layer_entry _ _ (val_main_v48 (F := Ideal) x0 x1 x3 x4 x5) _ _ _ _ (fun r k => by
    rw [val_main_v48_apply, val_main_v47_apply, show idx_main_v47 (ix2 r k) = ix2 r (0 : Fin 1) from eq_ix2 _]) _ _

theorem layer3_ref : val_main_v84 (F := Ideal) x0 x1 x3 x4 x5
    = Cert.Spec.layerFn (val_main_v70 (F := Ideal) x0 x1 x3 x4 x5) (val_main_v12 (F := Ideal) x1) (val_main_v60 (F := Ideal) x0 x1 x3 x4 x5)
        (val_main_v74 (F := Ideal) x3) (val_main_v78 (F := Ideal) x4) (val_main_v82 (F := Ideal) x5) := by
  funext i
  obtain ⟨r, j, rfl⟩ : ∃ (r : Fin 50000) (j : Fin 128), i = ix2 r j := ⟨i 0, i 1, eq_ix2 i⟩
  rw [val_main_v84_apply, val_main_v80_apply, val_main_v75_apply, val_main_v79_apply, val_main_v83_apply]
  exact layer_entry _ _ (val_main_v72 (F := Ideal) x0 x1 x3 x4 x5) _ _ _ _ (fun r k => by
    rw [val_main_v72_apply, val_main_v71_apply, show idx_main_v71 (ix2 r k) = ix2 r (0 : Fin 1) from eq_ix2 _]) _ _

end Cert.ReferenceIdeal.RefValue

end
-- ==== Proof.LibScatter.lean ====
import Idealize.ShloMosaic.Lib.StableHlo.Predicate

namespace Cert.LibRows

open Idealize.ShloMosaic Idealize.ShloMosaic.StableHlo.Predicate

section
variable {s u : Shape} {n w : ℕ} (d : ScatterDims s ⟨2, ![n, 1]⟩ u) (j : u.Idx) (idx : IVec ⟨2, ![n, 1]⟩ w)

-- An update lands on i exactly when, on every axis, its window's start plus its window coordinate is i's coordinate.
theorem lands_iff (i : s.Idx) :
    d.resultIdx? j idx = some i ↔ ∀ a, d.start j idx a + (d.window j a : ℤ) = ((i a).val : ℤ) := by
  unfold ScatterDims.resultIdx?
  constructor
  · intro h a
    split at h
    · next hin =>
      have h0 : (d.start j idx a + (d.window j a : ℤ)).toNat = (i a).val := congrArg (fun f => (f a).val) (Option.some.inj h)
      have := (hin a).1
      omega
    · exact absurd h (by simp)
  · intro h
    have hin : ∀ a, 0 ≤ d.start j idx a + d.window j a ∧ d.start j idx a + (d.window j a : ℤ) < (s.size a : ℤ) := fun a => by
      have := (i a).isLt
      rw [h a]; omega
    rw [dif_pos hin]
    congr 1
    funext a
    apply Fin.ext
    show (d.start j idx a + (d.window j a : ℤ)).toNat = (i a).val
    rw [h a]; omega

-- With one start index per update, on the one operand axis it names the window starts at the index word read signed.
theorem start_eq (hivd : d.indexVectorDim = 1) {a : Fin s.rank} (hsd : d.scatterDimsToOperandDims = [a]) (e : Fin n)
    (he : ∀ X ∈ d.uScatter, (j X).val = e.val) : d.start j idx a = (idx (ixP e)).toInt := by
  have hm : a ∈ d.scatterDimsToOperandDims := by rw [hsd]; exact List.mem_singleton.mpr rfl
  unfold ScatterDims.start
  rw [dif_pos hm]
  congr 2
  funext b
  apply Fin.ext
  match b with
  | ⟨0, _⟩ =>
    unfold ScatterDims.siIdx
    rw [dif_neg (by rw [hivd]; exact Nat.zero_ne_one)]
    unfold ScatterDims.siCoord
    simp only [Fin.val_cast]
    exact he _ (List.getElem_mem _)
  | ⟨1, _⟩ =>
    unfold ScatterDims.siIdx
    rw [dif_pos (by rw [hivd])]
    show List.idxOf a d.scatterDimsToOperandDims = 0
    rw [hsd]; simp

theorem mem_sKept (a : Fin s.rank) : a ∈ d.sKept ↔ a ∉ d.insertedWindowDims := by
  simp [ScatterDims.sKept, Shape.kept, List.mem_filter, List.mem_finRange]

end

end Cert.LibRows
-- ==== Proof.LibRows.lean ====
import proofs.«426644_j22574348108036_2_alg».proof.Proof.LibScatter
import Idealize.ShloMosaic.PureOps.Ideal.Laws
import Idealize.ShloMosaic.Lib.ValueIdx

noncomputable section

namespace Cert.LibRows

open Idealize.ShloMosaic Idealize.ShloMosaic.ValueIdx Idealize.ShloMosaic.StableHlo.Predicate

-- Update entry (e, c) of an accumulating row scatter lands on (r, c') exactly when start index e, read signed, is r and c = c'.
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  have hs0 := start_eq d (ix2 e c) idx hivd hsd e fun X hX => by
    have : d.uScatter = [(0 : Fin 2)] := by unfold ScatterDims.uScatter; rw [huw]; rfl
    rw [this] at hX; obtain rfl := List.mem_singleton.mp hX; rfl
  have hs1 : d.start (ix2 e c) idx 1 = 0 := by unfold ScatterDims.start; rw [dif_neg (by rw [hsd]; simp)]
  have hw0 : d.window (ix2 e c) 0 = 0 := by unfold ScatterDims.window; rw [dif_neg (by rw [mem_sKept, hiw]; simp)]
  have hw1 : d.window (ix2 e c) 1 = c.val := by
    have hX : ∀ X ∈ d.updateWindowDims, ((ix2 e c : (⟨2, ![n, C]⟩ : Shape).Idx) X).val = c.val := by
      rw [huw]; intro X hX; obtain rfl := List.mem_singleton.mp hX; rfl
    unfold ScatterDims.window
    rw [dif_pos (by rw [mem_sKept, hiw]; simp)]
    exact hX _ (List.getElem_mem _)
  have := r.isLt
  have := c'.isLt
  rw [lands_iff]
  constructor
  · intro h
    have h0 := h 0
    have h1 := h 1
    rw [hs0, hw0] at h0
    rw [hs1, hw1] at h1
    change _ = (r.val : ℤ) at h0
    change _ = (c'.val : ℤ) at h1
    exact ⟨by omega, Fin.ext (by omega)⟩
  · rintro ⟨hi, rfl⟩ a
    match a with
    | ⟨0, _⟩ =>
      show d.start (ix2 e c) idx 0 + (d.window (ix2 e c) 0 : ℤ) = (r.val : ℤ)
      rw [hs0, hw0, hi]; omega
    | ⟨1, _⟩ =>
      show d.start (ix2 e c) idx 1 + (d.window (ix2 e c) 1 : ℤ) = (c.val : ℤ)
      rw [hs1, hw1]; omega

-- Read at (r, c): the operand's entry plus the sum, over the update rows that land on r, of their entry in column c.
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

end Cert.LibRows

end
-- ==== Proof.Value.RefReadout.lean ====
import proofs.«426644_j22574348108036_2_alg».proof.Proof.Gen.ReferenceIdeal.Read
import proofs.«426644_j22574348108036_2_alg».proof.Proof.Spec
import proofs.«426644_j22574348108036_2_alg».proof.Proof.LibRows
import proofs.«426644_j22574348108036_2_alg».proof.Proof.LibScatter
import Idealize.ShloMosaic.Lib.Pipeline.Value
import Idealize.ShloMosaic.Lib.ValueIdxRank1
import Idealize.ShloMosaic.Lib.IdealHost

noncomputable section

namespace Cert.ReferenceIdeal.RefValue2

open Cert.ReferenceIdeal Cert.ReferenceIdeal.Gen Cert.ReferenceIdeal.Read Cert.LibRows
open Idealize.ShloMosaic Idealize.ShloMosaic.ValueIdx Idealize.ShloMosaic.StableHlo.Predicate

-- Update entry e of an accumulating scatter of single entries lands on r exactly when start index e, read signed, is r.
theorem scatter_entries_resultIdx {N n w : ℕ} (d : ScatterDims ⟨1, ![N]⟩ ⟨2, ![n, 1]⟩ ⟨1, ![n]⟩)
    (hiw : d.insertedWindowDims = [0]) (hsd : d.scatterDimsToOperandDims = [0])
    (hivd : d.indexVectorDim = 1) (idx : IVec ⟨2, ![n, 1]⟩ w) (e : Fin n) (r : Fin N) :
    d.resultIdx? (ix1 e) idx = some (ix1 r) ↔ (idx (ixP e)).toInt = (r.val : ℤ) := by
  have hs0 := start_eq d (ix1 e) idx hivd hsd e fun X _ => by match X with | ⟨0, _⟩ => rfl
  have hw0 : d.window (ix1 e) 0 = 0 := by unfold ScatterDims.window; rw [dif_neg (by rw [mem_sKept, hiw]; simp)]
  have := r.isLt
  rw [lands_iff]
  constructor
  · intro h
    have h0 := h 0
    rw [hs0, hw0] at h0
    change _ = (r.val : ℤ) at h0
    omega
  · intro hi a
    match a with
    | ⟨0, _⟩ =>
      show d.start (ix1 e) idx 0 + (d.window (ix1 e) 0 : ℤ) = (r.val : ℤ)
      rw [hs0, hw0, hi]; omega

-- Read at r: the operand's entry plus the sum of the update entries that land on r.
theorem scatterAdd_entries {φ : FTy} {N n w : ℕ} (d : ScatterDims ⟨1, ![N]⟩ ⟨2, ![n, 1]⟩ ⟨1, ![n]⟩)
    (hiw : d.insertedWindowDims = [0]) (hsd : d.scatterDimsToOperandDims = [0])
    (hivd : d.indexVectorDim = 1) (x : FVec Ideal ⟨1, ![N]⟩ φ) (idx : IVec ⟨2, ![n, 1]⟩ w)
    (upd : FVec Ideal ⟨1, ![n]⟩ φ) (r : Fin N) :
    Host.scatterAdd d x idx upd (ix1 r)
      = x (ix1 r) + ∑ e ∈ Finset.univ.filter (fun e : Fin n => (idx (ixP e)).toInt = (r.val : ℤ)), upd (ix1 e) := by
  show x (ix1 r) + ∑ j ∈ Finset.univ.filter (fun j => d.resultIdx? j idx = some (ix1 r)), upd j = _
  congr 1
  rw [Finset.sum_filter, ← Equiv.sum_comp (idxEquiv1 (n := n)).symm, Finset.sum_filter]
  refine Finset.sum_congr rfl fun a _ => ?_
  show (if d.resultIdx? (ix1 a) idx = some (ix1 r) then upd (ix1 a) else 0) = _
  simp only [scatter_entries_resultIdx d hiw hsd hivd]

-- The three layers' results side by side: columns 0–127 are the first layer's, 128–255 the second's, 256–383 the third's.
theorem cat_read (h1 h2 h3 : FVec Ideal ⟨2, ![50000, 128]⟩ .f32) (n : Fin 50000) (q : Fin 384) :
    concatenate S50000x384 1 [⟨S50000x128, h1⟩, ⟨S50000x128, h2⟩, ⟨S50000x128, h3⟩]
      concatenates_S50000x128_S50000x128_S50000x128_S50000x384_d1 (ix2 n q) = Cert.Spec.catAt h1 h2 h3 n q := by
  unfold Cert.Spec.catAt
  split
  · next hq =>
    exact concatenate_apply_piece (1 : Fin S50000x384.rank) _ _ (ix2 n q) 0 (by show (0 : ℕ) < 3; omega) S50000x128 h1 rfl rfl 0 rfl
      (ix2 n ⟨q.val, hq⟩) (fun b hb => by match b with | ⟨0, _⟩ => rfl | ⟨1, _⟩ => exact absurd (Fin.ext rfl) hb)
      (by show 0 + q.val = q.val; omega)
  · split
    · next hq hq' =>
      exact concatenate_apply_piece (1 : Fin S50000x384.rank) _ _ (ix2 n q) 1 (by show (1 : ℕ) < 3; omega) S50000x128 h2 rfl rfl 128 rfl
        (ix2 n ⟨q.val - 128, by omega⟩) (fun b hb => by match b with | ⟨0, _⟩ => rfl | ⟨1, _⟩ => exact absurd (Fin.ext rfl) hb)
        (by show 128 + (q.val - 128) = q.val; omega)
    · next hq hq' =>
      exact concatenate_apply_piece (1 : Fin S50000x384.rank) _ _ (ix2 n q) 2 (by show (2 : ℕ) < 3; omega) S50000x128 h3 rfl rfl 256 rfl
        (ix2 n ⟨q.val - 256, by have := q.isLt; omega⟩) (fun b hb => by match b with | ⟨0, _⟩ => rfl | ⟨1, _⟩ => exact absurd (Fin.ext rfl) hb)
        (by show 256 + (q.val - 256) = q.val; omega)

theorem count_read (ids : IVec ⟨2, ![50000, 1]⟩ 32) (g : Fin 512) :
    Host.scatterAdd (F := Ideal) (φ := .f32) scatter_S512_S50000x1_S50000_n_0_0_1 (val_main_v87 (F := Ideal)) ids (val_main_v86 (F := Ideal)) (ix1 g)
      = Cert.Spec.countAt ids g := by
  rw [scatterAdd_entries scatter_S512_S50000x1_S50000_n_0_0_1 rfl rfl rfl, val_main_v87_apply, val_main_cst_12_apply,
    Ideal.ofBits_def, Ideal.ofBits_zero_f32, zero_add]
  unfold Cert.Spec.countAt Cert.Spec.members
  refine Finset.sum_congr rfl fun e _ => ?_
  rw [val_main_v86_apply, val_main_cst_11_apply, Ideal.ofBits_def, Ideal.ofBits_one_f32]

theorem pooled_read (h1 h2 h3 : FVec Ideal ⟨2, ![50000, 128]⟩ .f32) (ids : IVec ⟨2, ![50000, 1]⟩ 32) (g : Fin 512) (q : Fin 384) :
    Host.scatterAdd (F := Ideal) (φ := .f32) scatter_S512x384_S50000x1_S50000x384_1_0_0_1 (val_main_v90 (F := Ideal)) ids
      (concatenate S50000x384 1 [⟨S50000x128, h1⟩, ⟨S50000x128, h2⟩, ⟨S50000x128, h3⟩]
        concatenates_S50000x128_S50000x128_S50000x128_S50000x384_d1) (ix2 g q)
      = Cert.Spec.pooledAt h1 h2 h3 ids g q := by
  rw [scatterAdd_rows scatter_S512x384_S50000x1_S50000x384_1_0_0_1 rfl rfl rfl rfl, val_main_v90_apply,
    val_main_cst_13_apply, Ideal.ofBits_def, Ideal.ofBits_zero_f32, zero_add]
  unfold Cert.Spec.pooledAt Cert.Spec.members
  exact Finset.sum_congr rfl fun e _ => cat_read h1 h2 h3 e q

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S3x128x128, .f32⟩ : BufTy).Contents (Elt Ideal))
  (x4 : (⟨S3x128, .f32⟩ : BufTy).Contents (Elt Ideal)) (x5 : (⟨S3x128x128, .f32⟩ : BufTy).Contents (Elt Ideal))
  (x6 : (⟨S384x128, .f32⟩ : BufTy).Contents (Elt Ideal)) (x7 : (⟨S128, .f32⟩ : BufTy).Contents (Elt Ideal))
  (x8 : (⟨S128x10, .f32⟩ : BufTy).Contents (Elt Ideal)) (x9 : (⟨S10, .f32⟩ : BufTy).Contents (Elt Ideal))

-- The pooled mean at (g, q): graph g's pooled sum in column q over its node count, the count kept at least one.
theorem mean_ref (g : Fin 512) (q : Fin 384) :
    val_main_v97 (F := Ideal) x0 x1 x2 x3 x4 x5 (ix2 g q)
      = Ideal.div (Cert.Spec.pooledAt (val_main_v36 x0 x1 x3 x4 x5) (val_main_v60 x0 x1 x3 x4 x5) (val_main_v84 x0 x1 x3 x4 x5) (val_main_v91 x2) g q)
          (max (Cert.Spec.countAt (val_main_v91 x2) g) (Ideal.ofBits .f32 0x3F800000#32)) := by
  rw [val_main_v97_apply, val_main_v96_apply, val_main_v95_apply, show idx_main_v95 (idx_main_v96 (ix2 g q)) = ix1 g from eq_ix1 _,
    val_main_v94_apply, val_main_v93_apply, val_main_cst_14_apply]
  rw [show val_main_v92 (F := Ideal) x0 x1 x2 x3 x4 x5 (ix2 g q) = _ from pooled_read _ _ _ _ g q,
    show val_main_v89 (F := Ideal) x2 (ix1 g) = _ from count_read _ g]
  simp only [Ideal.hostDivf_def, Ideal.maximumf_def, Ideal.ofBits_def]
  rfl

-- The hidden layer at (g, j): the pooled mean through the first weight and bias, clamped below at zero.
theorem hidden_ref (g : Fin 512) (j : Fin 128) :
    val_main_v102 (F := Ideal) x0 x1 x2 x3 x4 x5 x6 x7 (ix2 g j)
      = Cert.Spec.hiddenAt (val_main_v36 x0 x1 x3 x4 x5) (val_main_v60 x0 x1 x3 x4 x5) (val_main_v84 x0 x1 x3 x4 x5) (val_main_v91 x2) x6 (val_main_v99 x7) g j := by
  have el : ∀ k : Fin 384, lidx_main_v98 (ix2 g j) k = ix2 g k := fun k => eq_ix2 _
  have er : ∀ k : Fin 384, ridx_main_v98 (ix2 g j) k = ix2 k j := fun k => eq_ix2 _
  rw [val_main_v102_apply, val_main_v101_apply, val_main_v98_apply, val_main_call0_v0_apply, val_main_call0_cst_apply,
    val_main_v100_apply, show idx_main_v100 (ix2 g j) = ix2 (0 : Fin 1) j from eq_ix2 _]
  simp only [el, er, mean_ref, Ideal.maximumf_def, Ideal.addf_def, Ideal.ofBits_def]
  rfl

-- The reference's result at (g, t): the hidden row g through the second weight and bias.
theorem readout_ref : val_main_v106 (F := Ideal) x0 x1 x2 x3 x4 x5 x6 x7 x8 x9
    = Cert.Spec.readoutFn (val_main_v36 x0 x1 x3 x4 x5) (val_main_v60 x0 x1 x3 x4 x5) (val_main_v84 x0 x1 x3 x4 x5) (val_main_v91 x2) x6 (val_main_v99 x7) x8 (val_main_v104 x9) := by
  funext i
  obtain ⟨g, t, rfl⟩ : ∃ (g : Fin 512) (t : Fin 10), i = ix2 g t := ⟨i 0, i 1, eq_ix2 i⟩
  have el : ∀ k : Fin 128, lidx_main_v103 (ix2 g t) k = ix2 g k := fun k => eq_ix2 _
  have er : ∀ k : Fin 128, ridx_main_v103 (ix2 g t) k = ix2 k t := fun k => eq_ix2 _
  rw [Cert.Spec.readoutFn_ix2, val_main_v106_apply, val_main_v103_apply, val_main_v105_apply,
    show idx_main_v105 (ix2 g t) = ix2 (0 : Fin 1) t from eq_ix2 _]
  simp only [el, er, hidden_ref, Ideal.addf_def]
  rfl

end Cert.ReferenceIdeal.RefValue2

end
-- ==== Proof.Value.HostEnds.lean ====
import proofs.«426644_j22574348108036_2_alg».proof.Proof.HandKernelIdeal.Run
import proofs.«426644_j22574348108036_2_alg».proof.Proof.Gen.KernelIdeal.Regions
import proofs.«426644_j22574348108036_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.Lib.Pipeline.FrameSuffix
import Idealize.ShloMosaic.PureOps.Ideal.Laws

noncomputable section

namespace Cert.KernelIdeal.HandValue

open Idealize.ShloMosaic Idealize.ShloMosaic.TcCoe Idealize.SL.Sem Idealize.ShloMosaic.StableHlo
open Idealize.ShloMosaic.ValueIdx
open Cert.KernelIdeal Cert.KernelIdeal.Gen Cert.KernelIdeal.Hand
open Cert.ReferenceIdeal.Read

-- On the extended reals narrowing and widening are the identity, and a gather only moves elements.
theorem widen_gather_narrow {s si t : Shape} (d : GatherDims s si t) (x : FVec Ideal s .f32) (i : IVec si 32)
    (h1 : FTy.bits .bf16 < FTy.bits .f32) (h2 : FTy.bits .bf16 < FTy.bits .f32) :
    extf .f32 (Host.gather d (truncf .bf16 x h1) i) h2 = Host.gather d x i := rfl

-- Entry (0, q) of a vector laid out as one row, by a reshape or by a broadcast along a new leading axis, is entry q.
theorem row_reshape_eq_broadcast {α : Type} {n : Nat} (y : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ y h = broadcastInDim ⟨2, ![1, n]⟩ ![1] hb y := by
  funext j
  obtain ⟨p, q, rfl⟩ : ∃ (p : Fin 1) (q : Fin n), j = ix2 p q := ⟨j 0, j 1, eq_ix2 j⟩
  refine (shapeCast_a_1a_apply y h p q).trans (broadcastInDim_apply ![1] hb y _ (ix1 q) fun a => ?_).symm
  match a with
  | ⟨0, _⟩ =>
    show q.val = if n = 1 then 0 else q.val
    split
    · have := q.isLt; omega
    · rfl

-- Entry (p, 0) of a vector laid out as one column, by a reshape or by a broadcast along a new trailing axis, is entry p.
theorem col_reshape_eq_broadcast {α : Type} {n : Nat} (y : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ y h = broadcastInDim ⟨2, ![n, 1]⟩ ![0] hb y := by
  funext j
  obtain ⟨p, q, rfl⟩ : ∃ (p : Fin n) (q : Fin 1), j = ix2 p q := ⟨j 0, j 1, eq_ix2 j⟩
  refine (shapeCast_apply y h _ (ix1 p) ?_).trans (broadcastInDim_apply ![0] hb y _ (ix1 p) fun a => ?_).symm
  · rw [Shape.rowMajor_val_one, Shape.rowMajor_val_two]
    show p.val = p.val * 1 + q.val
    have := q.isLt; omega
  · match a with
    | ⟨0, _⟩ =>
      show p.val = if n = 1 then 0 else p.val
      split
      · have := p.isLt; omega
      · rfl

variable (m : (ℓ : Loc nD τ sig) → Buf (Elt Ideal) ℓ) (c : Dev nD)

theorem host0_x : Hand.V1 m c main_arg0 = m ((c.tc : Thread nD τ).loc main_arg0) :=
  StableHlo.after_of_writes_sub hostOps0 _ hostOps0_writes (by decide)

theorem host0_inv : Hand.V1 m c main_v12 = val_main_v12 (F := Ideal) (m ((c.tc : Thread nD τ).loc main_arg1)) := by
  show StableHlo.after hostOps0 (W0 m c) _ = _
  after_results; rfl

theorem host0_agg : Hand.V1 m c main_v24
    = val_main_v22 (F := Ideal) (m ((c.tc : Thread nD τ).loc main_arg0)) (m ((c.tc : Thread nD τ).loc main_arg1)) := by
  show StableHlo.after hostOps0 (W0 m c) _ = _
  after_results_simp
  rw [widen_gather_narrow]
  rfl

theorem host0_wl : Hand.V1 m c main_v26 = val_main_v26 (F := Ideal) (m ((c.tc : Thread nD τ).loc main_arg3)) := by
  show StableHlo.after hostOps0 (W0 m c) _ = _
  after_results; rfl

theorem host0_wr : Hand.V1 m c main_v30 = val_main_v34 (F := Ideal) (m ((c.tc : Thread nD τ).loc main_arg5)) := by
  show StableHlo.after hostOps0 (W0 m c) _ = _
  after_results; rfl

theorem host0_b : Hand.V1 m c main_v31 = val_main_v30 (F := Ideal) (m ((c.tc : Thread nD τ).loc main_arg4)) := by
  show StableHlo.after hostOps0 (W0 m c) _ = _
  after_results
  exact row_reshape_eq_broadcast _ _ _

theorem host3_ids : Hand.V7 m c main_v75 = val_main_v91 (F := Ideal) (W6 m c (Proc.devRef .tc main_arg2)) := by
  show StableHlo.after hostOps3 (W6 m c) _ = _
  after_results
  exact col_reshape_eq_broadcast _ _ _

theorem host3_b1 : Hand.V7 m c main_v73 = val_main_v99 (F := Ideal) (W6 m c (Proc.devRef .tc main_arg7)) := by
  show StableHlo.after hostOps3 (W6 m c) _ = _
  after_results
  exact row_reshape_eq_broadcast _ _ _

theorem host3_b2 : Hand.V7 m c main_v74 = val_main_v104 (F := Ideal) (W6 m c (Proc.devRef .tc main_arg9)) := by
  show StableHlo.after hostOps3 (W6 m c) _ = _
  after_results
  exact row_reshape_eq_broadcast _ _ _

end Cert.KernelIdeal.HandValue
-- ==== Proof.Value.HostMid.lean ====
import proofs.«426644_j22574348108036_2_alg».proof.Proof.Value.HostEnds

noncomputable section

namespace Cert.KernelIdeal.HandValue

open Idealize.ShloMosaic Idealize.ShloMosaic.TcCoe Idealize.SL.Sem
open Cert.KernelIdeal Cert.KernelIdeal.Gen Cert.KernelIdeal.Hand
open Cert.ReferenceIdeal.Read

variable (m : (ℓ : Loc nD τ sig) → Buf (Elt Ideal) ℓ) (c : Dev nD)

set_option quotPrecheck false

local notation "a0" => m ((c.tc : Thread nD τ).loc main_arg0)
local notation "a1" => m ((c.tc : Thread nD τ).loc main_arg1)
local notation "a3" => m ((c.tc : Thread nD τ).loc main_arg3)
local notation "a4" => m ((c.tc : Thread nD τ).loc main_arg4)
local notation "a5" => m ((c.tc : Thread nD τ).loc main_arg5)

-- Rows 0 and 1 of the edge list are the edges' sources and targets.
theorem entry1_src : W1 m c (Proc.devRef .tc main_v1) = val_main_v1 (F := Ideal) a1 := by
  show StableHlo.after hostOps0 (W0 m c) _ = _
  after_results_simp; rfl
theorem entry1_dst : W1 m c (Proc.devRef .tc main_v3) = val_main_v3 (F := Ideal) a1 := by
  show StableHlo.after hostOps0 (W0 m c) _ = _
  after_results_simp; rfl

variable (hk2 : ∀ b : Ref sig .tc, b ≠ main_v32 → W2 m c (Proc.devRef .tc b) = W1 m c (Proc.devRef .tc b))
include hk2

theorem arg2 (b : Ref sig .tc) (h0 : b ∉ hostOps0_W) (h : b ≠ main_v32) : W2 m c (Proc.devRef .tc b) = m ((c.tc : Thread nD τ).loc b) :=
  (hk2 b h).trans (StableHlo.after_of_writes_sub hostOps0 _ hostOps0_writes h0)

theorem host1_agg (H1 : Hand.V2 m c main_v32 = val_main_v36 (F := Ideal) a0 a1 a3 a4 a5) :
    Hand.V3 m c main_v44 = val_main_v46 (F := Ideal) a0 a1 a3 a4 a5 := by
  show StableHlo.after hostOps1 (W2 m c) _ = _
  after_results_simp
  rw [widen_gather_narrow, show W2 m c (Proc.devRef .tc main_v32) = _ from H1, hk2 main_v1 (by decide), hk2 main_v3 (by decide),
    entry1_src, entry1_dst]
  rfl

theorem host1_inv : Hand.V3 m c main_v12 = val_main_v12 (F := Ideal) a1 :=
  (StableHlo.after_of_writes_sub hostOps1 _ hostOps1_writes (by decide)).trans <| (hk2 _ (by decide)).trans (host0_inv m c)

omit hk2 in
theorem host1_x (H1 : Hand.V2 m c main_v32 = val_main_v36 (F := Ideal) a0 a1 a3 a4 a5) :
    Hand.V3 m c main_v32 = val_main_v36 (F := Ideal) a0 a1 a3 a4 a5 :=
  (StableHlo.after_of_writes_sub hostOps1 _ hostOps1_writes (by decide)).trans H1

theorem host1_wl : Hand.V3 m c main_v46 = val_main_v50 (F := Ideal) a3 := by
  rw [← arg2 m c hk2 main_arg3 (by decide) (by decide)]
  show StableHlo.after hostOps1 (W2 m c) _ = _
  after_results_simp; rfl

theorem host1_b : Hand.V3 m c main_v51 = val_main_v54 (F := Ideal) a4 := by
  rw [← arg2 m c hk2 main_arg4 (by decide) (by decide)]
  show StableHlo.after hostOps1 (W2 m c) _ = _
  after_results_simp
  exact row_reshape_eq_broadcast _ _ _

theorem host1_wr : Hand.V3 m c main_v50 = val_main_v58 (F := Ideal) a5 := by
  rw [← arg2 m c hk2 main_arg5 (by decide) (by decide)]
  show StableHlo.after hostOps1 (W2 m c) _ = _
  after_results_simp; rfl

variable (hk4 : ∀ b : Ref sig .tc, b ≠ main_v52 → W4 m c (Proc.devRef .tc b) = W3 m c (Proc.devRef .tc b))
include hk4

theorem back4 (b : Ref sig .tc) (h1 : b ∉ hostOps1_W) (h : b ≠ main_v52) : W4 m c (Proc.devRef .tc b) = W2 m c (Proc.devRef .tc b) :=
  (hk4 b h).trans (StableHlo.after_of_writes_sub hostOps1 _ hostOps1_writes h1)

theorem arg4 (b : Ref sig .tc) (h0 : b ∉ hostOps0_W) (h1 : b ∉ hostOps1_W) (h : b ≠ main_v32) (h' : b ≠ main_v52) :
    W4 m c (Proc.devRef .tc b) = m ((c.tc : Thread nD τ).loc b) :=
  (back4 m c hk2 hk4 b h1 h').trans (arg2 m c hk2 b h0 h)

theorem host2_agg (H2 : Hand.V4 m c main_v52 = val_main_v60 (F := Ideal) a0 a1 a3 a4 a5) :
    Hand.V5 m c main_v64 = val_main_v70 (F := Ideal) a0 a1 a3 a4 a5 := by
  show StableHlo.after hostOps2 (W4 m c) _ = _
  after_results_simp
  rw [widen_gather_narrow, show W4 m c (Proc.devRef .tc main_v52) = _ from H2, back4 m c hk2 hk4 main_v1 (by decide) (by decide),
    back4 m c hk2 hk4 main_v3 (by decide) (by decide), hk2 main_v1 (by decide), hk2 main_v3 (by decide), entry1_src, entry1_dst]
  rfl

theorem host2_inv : Hand.V5 m c main_v12 = val_main_v12 (F := Ideal) a1 :=
  (StableHlo.after_of_writes_sub hostOps2 _ hostOps2_writes (by decide)).trans <|
    (hk4 _ (by decide)).trans (host1_inv m c hk2)

omit hk2 hk4 in
theorem host2_x (H2 : Hand.V4 m c main_v52 = val_main_v60 (F := Ideal) a0 a1 a3 a4 a5) :
    Hand.V5 m c main_v52 = val_main_v60 (F := Ideal) a0 a1 a3 a4 a5 :=
  (StableHlo.after_of_writes_sub hostOps2 _ hostOps2_writes (by decide)).trans H2

theorem host2_wl : Hand.V5 m c main_v66 = val_main_v74 (F := Ideal) a3 := by
  rw [← arg4 m c hk2 hk4 main_arg3 (by decide) (by decide) (by decide) (by decide)]
  show StableHlo.after hostOps2 (W4 m c) _ = _
  after_results_simp; rfl

theorem host2_b : Hand.V5 m c main_v71 = val_main_v78 (F := Ideal) a4 := by
  rw [← arg4 m c hk2 hk4 main_arg4 (by decide) (by decide) (by decide) (by decide)]
  show StableHlo.after hostOps2 (W4 m c) _ = _
  after_results_simp
  exact row_reshape_eq_broadcast _ _ _

theorem host2_wr : Hand.V5 m c main_v70 = val_main_v82 (F := Ideal) a5 := by
  rw [← arg4 m c hk2 hk4 main_arg5 (by decide) (by decide) (by decide) (by decide)]
  show StableHlo.after hostOps2 (W4 m c) _ = _
  after_results_simp; rfl

end Cert.KernelIdeal.HandValue
-- ==== Proof.Bridge.lean ====
import proofs.«426644_j22574348108036_2_alg».proof.Proof.HandKernelIdeal.Ends
import proofs.«426644_j22574348108036_2_alg».proof.Proof.Value.LayerValue0
import proofs.«426644_j22574348108036_2_alg».proof.Proof.Value.LayerValue1
import proofs.«426644_j22574348108036_2_alg».proof.Proof.Value.LayerValue2
import proofs.«426644_j22574348108036_2_alg».proof.Proof.Value.PoolAccValue
import proofs.«426644_j22574348108036_2_alg».proof.Proof.Value.PoolOutValue
import proofs.«426644_j22574348108036_2_alg».proof.Proof.Value.RefLayers
import proofs.«426644_j22574348108036_2_alg».proof.Proof.Value.RefReadout
import proofs.«426644_j22574348108036_2_alg».proof.Proof.Value.HostEnds
import proofs.«426644_j22574348108036_2_alg».proof.Proof.Value.HostMid

namespace Cert.KernelIdeal.HandValue

open Idealize.ShloMosaic Idealize.ShloMosaic.TcCoe Idealize.SL.Sem
open Cert.KernelIdeal Cert.KernelIdeal.Gen Cert.KernelIdeal.Hand
open Cert.ReferenceIdeal.Read Cert.ReferenceIdeal.RefValue Cert.ReferenceIdeal.RefValue2

variable (m : (ℓ : Loc nD τ sig) → Buf (Elt Ideal) ℓ) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)

/-- Each layer region leaves the reference's layer value: the host stretch before it forms the reference's operands. -/
theorem first_layer : Hand.V2 m c main_v32 = val_main_v36 (F := Ideal) a0 a1 a3 a4 a5 :=
  (hF0 m c 6).symm.trans <| (layer0_final (Hand.V1 m) c).trans <|
    (congr (congr (congr (congr (congr (congrArg Cert.Spec.layerFn (host0_agg m c)) (host0_inv m c)) (host0_x m c)) (host0_wl m c))
      (host0_b m c)) (host0_wr m c)).trans (layer1_ref _ _ _ _ _).symm

theorem second_layer : Hand.V4 m c main_v52 = val_main_v60 (F := Ideal) a0 a1 a3 a4 a5 :=
  have H := first_layer m c
  have k := W2_keep m c
  (hF1 m c 6).symm.trans <| (layer1_final (Hand.V3 m) c).trans <|
    (congr (congr (congr (congr (congr (congrArg Cert.Spec.layerFn (host1_agg m c k H)) (host1_inv m c k)) (host1_x m c H)) (host1_wl m c k))
      (host1_b m c k)) (host1_wr m c k)).trans (layer2_ref _ _ _ _ _).symm

theorem third_layer : Hand.V6 m c main_v72 = val_main_v84 (F := Ideal) a0 a1 a3 a4 a5 :=
  have H := second_layer m c
  have k := W2_keep m c
  have k' := W4_keep m c
  (hF2 m c 6).symm.trans <| (layer2_final (Hand.V5 m) c).trans <|
    (congr (congr (congr (congr (congr (congrArg Cert.Spec.layerFn (host2_agg m c k k' H)) (host2_inv m c k k')) (host2_x m c H)) (host2_wl m c k k'))
      (host2_b m c k k')) (host2_wr m c k k')).trans (layer3_ref _ _ _ _ _).symm

variable (b : Ref sig .tc)

theorem keep64 (n2 : b ≠ main_v72 := by decide) (h2 : b ∉ hostOps2_W := by decide) :
    W6 m c (Proc.devRef .tc b) = W4 m c (Proc.devRef .tc b) := (W6_keep m c b n2).trans (W5_keep m c b h2)

theorem keep42 (n1 : b ≠ main_v52 := by decide) (h1 : b ∉ hostOps1_W := by decide) :
    W4 m c (Proc.devRef .tc b) = W2 m c (Proc.devRef .tc b) := (W4_keep m c b n1).trans (W3_keep m c b h1)

theorem keep60 (n2 : b ≠ main_v72 := by decide) (h2 : b ∉ hostOps2_W := by decide) (n1 : b ≠ main_v52 := by decide)
    (h1 : b ∉ hostOps1_W := by decide) (n0 : b ≠ main_v32 := by decide) (h0 : b ∉ hostOps0_W := by decide) :
    W6 m c (Proc.devRef .tc b) = m ((c.tc : Thread nD τ).loc b) :=
  (keep64 m c b n2 h2).trans <| (keep42 m c b n1 h1).trans <| (W2_keep m c b n0).trans (W1_keep m c b h0)

/-- The last region leaves the readout of the three layer values, which is the reference's result. -/
theorem result_eq : (poolDat (Hand.V7 m) c).arrAt 8 cfg3.N
    = Cert.ReferenceIdeal.Read.val_main_v106 (F := Ideal) a0 a1 a2 a3 a4 a5 a6 a7 a8 a9 :=
  (pool_final (Hand.V7 m) c (poolAcc_last_pooled (Hand.V7 m) c) (poolAcc_last_count (Hand.V7 m) c)).trans <|
    (congr (congr (congr (congr (congr (congr (congr (congrArg Cert.Spec.readoutFn
      ((W7_keep m c main_v32 (by decide)).trans <| (keep64 m c main_v32).trans <| (keep42 m c main_v32).trans (first_layer m c)))
      ((W7_keep m c main_v52 (by decide)).trans <| (keep64 m c main_v52).trans (second_layer m c)))
      ((W7_keep m c main_v72 (by decide)).trans (third_layer m c)))
      ((host3_ids m c).trans (congrArg _ (keep60 m c main_arg2))))
      ((W7_keep m c main_arg6 (by decide)).trans (keep60 m c main_arg6)))
      ((host3_b1 m c).trans (congrArg _ (keep60 m c main_arg7))))
      ((W7_keep m c main_arg8 (by decide)).trans (keep60 m c main_arg8)))
      ((host3_b2 m c).trans (congrArg _ (keep60 m c main_arg9)))).trans
    (readout_ref _ _ _ _ _ _ _ _ _ _).symm

end Cert.KernelIdeal.HandValue
-- ==== Proof.lean ====
import proofs.«426644_j22574348108036_2_alg».proof.Defs
import proofs.«426644_j22574348108036_2_alg».proof.Proof.Gen.Kernel
import proofs.«426644_j22574348108036_2_alg».proof.Proof.Gen.KernelIdeal
import proofs.«426644_j22574348108036_2_alg».proof.Proof.Gen.ReferenceIdeal
import proofs.«426644_j22574348108036_2_alg».proof.Proof.Gen.ReferenceIdeal.Run
import proofs.«426644_j22574348108036_2_alg».proof.Proof.Gen.ReferenceIdeal.Read
import proofs.«426644_j22574348108036_2_alg».proof.Proof.Gen.Pre_finite_inputs
import proofs.«426644_j22574348108036_2_alg».proof.Proof.HandKernel.Ends
import proofs.«426644_j22574348108036_2_alg».proof.Proof.HandKernelIdeal.Ends
import proofs.«426644_j22574348108036_2_alg».proof.Proof.Bridge

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame_hand (F := Bits) m ρ

theorem frame_ki : @Cert.frame_KernelIdeal Cert.KernelIdeal.Gen.facts Cert.Pre_finite_inputs.Gen.facts :=
  fun m ρ _ => Cert.KernelIdeal.Hand.frame_hand (F := Ideal) m ρ

/-- A host program's frame is its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both runs end at the reference's last stage of the shared arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => (Cert.KernelIdeal.Hand.poolDat (Cert.KernelIdeal.Hand.V7 m) c).arrAt 8 Cert.KernelIdeal.cfg3.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v106_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.HandValue.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
